-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S10000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S16 .f32) (main_arg7 : FVec F S16x10 .f32) (main_arg8 : FVec F S10 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x10 .f32 := Host.absf main_arg7
  let main_cst_8 : FVec F S_ .f32 := constant S_ .f32 0x7F800000#32
  let main_v25 : FVec F S16x10 .f32 := broadcastInDim S16x10 ![] bcast_S_S16x10 main_cst_8
  let main_v26 : IVec S16x10 1 := cmpf .olt main_v24 main_v25
  let main_c_9 : IVec S_ 1 := constantI S_ 1 1#1
  let main_v27 : IVec S_ 1 := (fun x v => Host.reduce IntOp.andi x v reducesTo_S16x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : IVec S100000 32) (main_arg3 : FVec F S128x16 .f32) (main_arg4 : FVec F S16 .f32) (main_arg5 : FVec F S16x16 .f32) (main_arg6 : FVec F S16 .f32) (main_arg7 : FVec F S16x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x640000 : Shape := ⟨2, ![1, 640000]⟩
abbrev S640000 : Shape := ⟨1, ![640000]⟩
abbrev S100000x16 : Shape := ⟨2, ![100000, 16]⟩
abbrev S10000x128 : Shape := ⟨2, ![10000, 128]⟩
abbrev S10000x16 : Shape := ⟨2, ![10000, 16]⟩
abbrev S_ : Shape := ⟨0, ![]⟩
abbrev S640000x1 : Shape := ⟨2, ![640000, 1]⟩
abbrev S640000x16 : Shape := ⟨2, ![640000, 16]⟩
abbrev S1x16 : Shape := ⟨2, ![1, 16]⟩
abbrev S100000x1 : Shape := ⟨2, ![100000, 1]⟩
abbrev S1x128 : Shape := ⟨2, ![1, 128]⟩
abbrev S10000x1 : Shape := ⟨2, ![10000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 55
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x10, .f32⟩
  | .hbm, ⟨8, _⟩ => ⟨S10, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S100000x16, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x16, .f32⟩
  | .hbm, ⟨23, _⟩ => ⟨S_, .f32⟩
  | .hbm, ⟨24, _⟩ => ⟨S100000x16, .f32⟩
  | .hbm, ⟨25, _⟩ => ⟨S640000x1, .i32⟩
  | .hbm, ⟨26, _⟩ => ⟨S100000x16, .f32⟩
  | .hbm, ⟨27, _⟩ => ⟨S100000x16, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x16, .f32⟩
  | .hbm, ⟨37, _⟩ => ⟨S_, .f32⟩
  | .hbm, ⟨38, _⟩ => ⟨S100000x16, .f32⟩
  | .hbm, ⟨39, _⟩ => ⟨S640000x1, .i32⟩
  | .hbm, ⟨40, _⟩ => ⟨S100000x16, .f32⟩
  | .hbm, ⟨41, _⟩ => ⟨S100000x1, .i32⟩
  | .hbm, ⟨42, _⟩ => ⟨S128x16, .f32⟩
  | .hbm, ⟨43, _⟩ => ⟨S1x128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128x1, .f32⟩
  | .hbm, ⟨49, _⟩ => ⟨S128x16, .f32⟩
  | .hbm, ⟨50, _⟩ => ⟨S128x16, .f32⟩
  | .hbm, ⟨51, _⟩ => ⟨S128x10, .f32⟩
  | .hbm, ⟨52, _⟩ => ⟨S1x10, .f32⟩
  | .hbm, ⟨53, _⟩ => ⟨S128x10, .f32⟩
  | .hbm, ⟨54, _⟩ => ⟨S128x10, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S16x16, .f32⟩
  | .local _ .vmem, ⟨17, _⟩ => ⟨S16, .f32⟩
  | .local _ .vmem, ⟨18, _⟩ => ⟨S10000x1, .i32⟩
  | .local _ .vmem, ⟨19, _⟩ => ⟨S10000x1, .i32⟩
  | .local _ .vmem, ⟨20, _⟩ => ⟨S128x16, .f32⟩
  | .local _ .vmem, ⟨21, _⟩ => ⟨S1x128, .f32⟩
  | .local _ .vmem, ⟨22, _⟩ => ⟨S128x16, .f32⟩
  | .local _ .vmem, ⟨23, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg6_0 : Ref sig .tc := ⟨.vmem, 21, rfl⟩
abbrev cc2_scratch0 : Ref sig .tc := ⟨.vmem, 22, rfl⟩
abbrev cc2_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem6_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_20 : BitVec 32 := 0#32
  let v44 : BitVec 1 := Scalar.cmpi .ne v43 c0_i32_20
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S_S640000 : S_.BroadcastsInDim S640000 (![] : Fin 0 → Fin S640000.rank)
  bcast_S640000_S640000x1_0 : S640000.BroadcastsInDim S640000x1 (![0] : Fin 1 → Fin S640000x1.rank)
  bcast_S_S100000x16 : S_.BroadcastsInDim S100000x16 (![] : Fin 0 → Fin S100000x16.rank)
  shapeCasts_S10000x16_S10000x16 : S10000x16.ShapeCasts S10000x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  shapeCasts_S100000_S100000x1 : S100000.ShapeCasts S100000x1
  shapeCasts_S128x16_S128x16 : S128x16.ShapeCasts S128x16
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S16x16_S16x16_0_0 : ∀ a, (![0, 0] : Fin 2 → Nat) a + S16x16.size a ≤ S16x16.size a
  h_S16x16 : 0 < S16x16.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S1x128_d1_w32 : S1x128.Iotas .tc 32 [1]
  broadcasts_S10000x1_S10000x128 : S10000x1.Broadcasts S10000x128
  broadcasts_S1x128_S10000x128 : S1x128.Broadcasts S10000x128
  natLt_1_32 : 1 < 32
  reduces_S10000x128_S128 : S10000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  bcast_S128_S128x1_0 : S128.BroadcastsInDim S128x1 (![0] : Fin 1 → Fin S128x1.rank)
  bcast_S128x1_S128x16_0_1 : S128x1.BroadcastsInDim S128x16 (![0, 1] : Fin 2 → Fin S128x16.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  dot_S10000x128_S128x16_S10000x16_1_0_0_1_n_n_wf : DotDims.WF S10000x128 S128x16 S10000x16 [1] [0] [0] [1] [] []
  gather_S100000x16_S640000x1_S640000x16_1_0_n_n_0_1_116_wf : GatherDims.WF S100000x16 S640000x1 S640000x16 [1] [0] [] [0] [] 1 ![1, 16]
  scatter_S100000x16_S640000x1_S640000x16_1_0_0_1_wf : ScatterDims.WF S100000x16 S640000x1 S640000x16 [1] [0] [0] 1
  dot_S10000x16_S16x16_S10000x16_1_0_0_1_n_n_wf : DotDims.WF S10000x16 S16x16 S10000x16 [1] [0] [0] [1] [] []
  dot_S10000x128_S10000x16_S128x16_0_0_1_1_n_n_wf : DotDims.WF S10000x128 S10000x16 S128x16 [0] [0] [1] [1] [] []
  dot_S128x16_S16x10_S128x10_1_0_0_1_n_n_wf : DotDims.WF S128x16 S16x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16.size a ≤ S16.size a
  hwx2_3 : ∀ i : grid2.Coords, EltTy.bits .f32 = 32 ∨ (Rect.block (s := S16) S16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .i32 = 32 ∨ (Rect.block (s := S100000x1) S10000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x16.size a ≤ S128x16.size a
  hwx2_5 : ∀ i : grid2.Coords, EltTy.bits .f32 = 32 ∨ (Rect.block (s := S128x16) S128x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S640000x1_S640000x16_1_0_n_n_0_1_116 : GatherDims S100000x16 S640000x1 S640000x16 where
  offsetDims := [1]
  collapsedSliceDims := [0]
  operandBatchingDims := []
  startIndicesBatchingDims := []
  startIndexMap := [0]
  indexVectorDim := 1
  sliceSizes := ![1, 16]
  wf := gather_S100000x16_S640000x1_S640000x16_1_0_n_n_0_1_116_wf
def scatter_S100000x16_S640000x1_S640000x16_1_0_0_1 : ScatterDims S100000x16 S640000x1 S640000x16 where
  updateWindowDims := [1]
  insertedWindowDims := [0]
  scatterDimsToOperandDims := [0]
  indexVectorDim := 1
  wf := scatter_S100000x16_S640000x1_S640000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x128_S10000x16_S128x16_0_0_1_1_n_n : DotDims S10000x128 S10000x16 S128x16 where
  lhsContracting := [0]
  rhsContracting := [0]
  lhsNonContracting := [1]
  rhsNonContracting := [1]
  lhsBatch := []
  rhsBatch := []
  wf := dot_S10000x128_S10000x16_S128x16_0_0_1_1_n_n_wf
def dot_S128x16_S16x10_S128x10_1_0_0_1_n_n : DotDims S128x16 S16x10 S128x10 where
  lhsContracting := [1]
  rhsContracting := [0]
  lhsNonContracting := [0]
  rhsNonContracting := [1]
  lhsBatch := []
  rhsBatch := []
  wf := dot_S128x16_S16x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S10000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S10000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v27_0) S128x16.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27_1) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x16 : Shape := ⟨2, ![100000, 16]⟩
abbrev S1x16 : Shape := ⟨2, ![1, 16]⟩
abbrev S640000x16 : Shape := ⟨2, ![640000, 16]⟩
abbrev S100000x1 : Shape := ⟨2, ![100000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x10, .f32⟩
  | .hbm, ⟨8, _⟩ => ⟨S10, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S100000x128, .f32⟩
  | .hbm, ⟨24, _⟩ => ⟨S640000x1, .i32⟩
  | .hbm, ⟨25, _⟩ => ⟨S100000x128, .f32⟩
  | .hbm, ⟨26, _⟩ => ⟨S100000x128, .f32⟩
  | .hbm, ⟨27, _⟩ => ⟨S100000x16, .f32⟩
  | .hbm, ⟨28, _⟩ => ⟨S1x16, .f32⟩
  | .hbm, ⟨29, _⟩ => ⟨S100000x16, .f32⟩
  | .hbm, ⟨30, _⟩ => ⟨S100000x16, .f32⟩
  | .hbm, ⟨31, _⟩ => ⟨S_, .f32⟩
  | .hbm, ⟨32, _⟩ => ⟨S100000x16, .f32⟩
  | .hbm, ⟨33, _⟩ => ⟨S100000x16, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x16, .f32⟩
  | .hbm, ⟨43, _⟩ => ⟨S_, .f32⟩
  | .hbm, ⟨44, _⟩ => ⟨S100000x16, .f32⟩
  | .hbm, ⟨45, _⟩ => ⟨S640000x1, .i32⟩
  | .hbm, ⟨46, _⟩ => ⟨S100000x16, .f32⟩
  | .hbm, ⟨47, _⟩ => ⟨S100000x16, .f32⟩
  | .hbm, ⟨48, _⟩ => ⟨S100000x16, .f32⟩
  | .hbm, ⟨49, _⟩ => ⟨S1x16, .f32⟩
  | .hbm, ⟨50, _⟩ => ⟨S100000x16, .f32⟩
  | .hbm, ⟨51, _⟩ => ⟨S100000x16, .f32⟩
  | .hbm, ⟨52, _⟩ => ⟨S_, .f32⟩
  | .hbm, ⟨53, _⟩ => ⟨S100000x16, .f32⟩
  | .hbm, ⟨54, _⟩ => ⟨S100000x16, .f32⟩
  | .hbm, ⟨55, _⟩ => ⟨S_, .f32⟩
  | .hbm, ⟨56, _⟩ => ⟨S128x16, .f32⟩
  | .hbm, ⟨57, _⟩ => ⟨S100000x1, .i32⟩
  | .hbm, ⟨58, _⟩ => ⟨S128x16, .f32⟩
  | .hbm, ⟨59, _⟩ => ⟨S_, .f32⟩
  | .hbm, ⟨60, _⟩ => ⟨S100000, .f32⟩
  | .hbm, ⟨61, _⟩ => ⟨S_, .f32⟩
  | .hbm, ⟨62, _⟩ => ⟨S128, .f32⟩
  | .hbm, ⟨63, _⟩ => ⟨S100000x1, .i32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128x1, .f32⟩
  | .hbm, ⟨69, _⟩ => ⟨S128x16, .f32⟩
  | .hbm, ⟨70, _⟩ => ⟨S128x16, .f32⟩
  | .hbm, ⟨71, _⟩ => ⟨S128x10, .f32⟩
  | .hbm, ⟨72, _⟩ => ⟨S1x10, .f32⟩
  | .hbm, ⟨73, _⟩ => ⟨S128x10, .f32⟩
  | .hbm, ⟨74, _⟩ => ⟨S128x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S_S128x16 : S_.BroadcastsInDim S128x16 (![] : Fin 0 → Fin S128x16.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x16_0_1 : S128x1.BroadcastsInDim S128x16 (![0, 1] : Fin 2 → Fin S128x16.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x16_S100000x16_1_0_0_1_n_n_wf : DotDims.WF S100000x128 S128x16 S100000x16 [1] [0] [0] [1] [] []
  gather_S100000x16_S640000x1_S640000x16_1_0_n_n_0_1_116_wf : GatherDims.WF S100000x16 S640000x1 S640000x16 [1] [0] [] [0] [] 1 ![1, 16]
  scatter_S100000x16_S640000x1_S640000x16_1_0_0_1_wf : ScatterDims.WF S100000x16 S640000x1 S640000x16 [1] [0] [0] 1
  dot_S100000x16_S16x16_S100000x16_1_0_0_1_n_n_wf : DotDims.WF S100000x16 S16x16 S100000x16 [1] [0] [0] [1] [] []
  scatter_S128x16_S100000x1_S100000x16_1_0_0_1_wf : ScatterDims.WF S128x16 S100000x1 S100000x16 [1] [0] [0] 1
  scatter_S128_S100000x1_S100000_n_0_0_1_wf : ScatterDims.WF S128 S100000x1 S100000 [] [0] [0] 1
  dot_S128x16_S16x10_S128x10_1_0_0_1_n_n_wf : DotDims.WF S128x16 S16x10 S128x10 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S640000x1_S640000x16_1_0_n_n_0_1_116 : GatherDims S100000x16 S640000x1 S640000x16 where
  offsetDims := [1]
  collapsedSliceDims := [0]
  operandBatchingDims := []
  startIndicesBatchingDims := []
  startIndexMap := [0]
  indexVectorDim := 1
  sliceSizes := ![1, 16]
  wf := gather_S100000x16_S640000x1_S640000x16_1_0_n_n_0_1_116_wf
def scatter_S100000x16_S640000x1_S640000x16_1_0_0_1 : ScatterDims S100000x16 S640000x1 S640000x16 where
  updateWindowDims := [1]
  insertedWindowDims := [0]
  scatterDimsToOperandDims := [0]
  indexVectorDim := 1
  wf := scatter_S100000x16_S640000x1_S640000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S128x16_S100000x1_S100000x16_1_0_0_1 : ScatterDims S128x16 S100000x1 S100000x16 where
  updateWindowDims := [1]
  insertedWindowDims := [0]
  scatterDimsToOperandDims := [0]
  indexVectorDim := 1
  wf := scatter_S128x16_S100000x1_S100000x16_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x16_S16x10_S128x10_1_0_0_1_n_n : DotDims S128x16 S16x10 S128x10 where
  lhsContracting := [1]
  rhsContracting := [0]
  lhsNonContracting := [0]
  rhsNonContracting := [1]
  lhsBatch := []
  rhsBatch := []
  wf := dot_S128x16_S16x10_S128x10_1_0_0_1_n_n_wf

class Facts : Prop extends Facts₀ where

variable [Facts]
-- ==== Proof.KFrameR0.lean ====
import proofs.«412654_j20461224198763_3_alg».proof.Proof.Gen.Kernel.Launch
import proofs.«412654_j20461224198763_3_alg».proof.Proof.Gen.Kernel.Skeleton
import proofs.«412654_j20461224198763_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev all0_x : Rect S10000x128 := Rect.unit (s := S10000x128) ![0, 0] S10000x128.size inb_S10000x128_S10000x128_0_0
abbrev all0_w : Rect S128x16 := Rect.unit (s := S128x16) ![0, 0] S128x16.size inb_S128x16_S128x16_0_0
abbrev all0_o : Rect S10000x16 := Rect.unit (s := S10000x16) ![0, 0] S10000x16.size inb_S10000x16_S10000x16_0_0

/-- The output block the body leaves: its one whole-buffer store. -/
def prod0 (x0 : Vec F S10000x128 .f32) (x1 : Vec F S128x16 .f32) : Vec F S10000x16 .f32 :=
  View.canon [⟨all0_o, k0_pay1 (View.ld x0 all0_x) (View.ld x1 all0_w)⟩]

set_option maxHeartbeats 1000000 in
theorem body0_runs (c : Dev nD) (E : Set ℕ) (i : grid0.Coords) (arg1 : Memref sig .tc .vmem S10000x128 .f32) (harg1 : arg1.IsWhole)
    (arg2 : Memref sig .tc .vmem S128x16 .f32) (harg2 : arg2.IsWhole) (arg3 : Memref sig .tc .vmem S10000x16 .f32) (harg3 : arg3.IsWhole)
    (x0 : Vec F S10000x128 .f32) (x1 : Vec F S128x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel owns
  iintro ⟨⟨%f0, %hf0, H0⟩, ⟨%f1, %hf1, H1⟩, ⟨%d2, %f2, -, H2⟩, Hk⟩
  subst hf0 hf1
  sl_exec
  sl_step
  iapply Hk
  isplitl [H0]; · iexists f0; iframe; ipureintro; rfl
  isplitl [H1]; · iexists f1; iframe; ipureintro; rfl
  iexists _; iframe; ipureintro
  exact View.read_writes_eq_canon _ _ _ (View.cover_of_tiled _ S10000x16.size (by rfl))

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := rfl
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = prod0 (blk0 V c 0 t) (blk0 V c 1 t) := by dsimp only [dat0]
theorem dat0_before0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
theorem dat0_before1 (c : Dev nD) (t : Fin cfg0.N) (d) : (dat0 V c).before 1 t d = blk0 V c 1 t :=
  ((dat0 V c).before_in_eq_fetched 1 rfl (fun _ => rfl) (fun _ _ _ => rfl) (fun _ => rfl) t d).trans rfl

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl, dat0_after0, dat0_after1, dat0_after2]
  iintro ⟨HΦ, Ho, ⟨%d0, H0⟩, ⟨%d1, H1⟩, ⟨%d2, H2⟩⟩
  iapply (body0_runs c Set.univ _ _ _ _ _ _ _ (blk0 V c 0 t) (blk0 V c 1 t) _)
  iframe H0 H1
  isplitl [H2]; · iexists _; iexact H2
  iintro ⟨H0, H1, H2⟩
  iframe

theorem obligation0 (c : Dev nD) : BodyObligation (dat0 (F := F) V c) (defs₀ (F := F)) Variants.none () Set.univ := fun t => by
  rw [bigSep_W0, bigSep_W0]
  exact body0_at V c t

end

end Cert.Kernel.Launches

end
-- ==== Proof.KFrameR1.lean ====
import proofs.«412654_j20461224198763_3_alg».proof.Proof.Gen.Kernel.Launch
import proofs.«412654_j20461224198763_3_alg».proof.Proof.Gen.Kernel.Skeleton
import proofs.«412654_j20461224198763_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev all1_m : Rect S10000x16 := Rect.unit (s := S10000x16) ![0, 0] S10000x16.size inb_S10000x16_S10000x16_0_0
abbrev all1_b : Rect S16 := Rect.unit (s := S16) ![0] S16.size inb_S16_S16_0

/-- The output block the body leaves: its one whole-buffer store. -/
def relu1 (x0 x1 : Vec F S10000x16 .f32) (x2 : Vec F S16 .f32) : Vec F S10000x16 .f32 :=
  View.canon [⟨all1_m, k1_pay1 (View.ld x0 all1_m) (View.ld x1 all1_m) (View.ld x2 all1_b)⟩]

set_option maxHeartbeats 1000000 in
theorem body1_runs (c : Dev nD) (E : Set ℕ) (i : grid1.Coords) (arg1 : Memref sig .tc .vmem S10000x16 .f32) (harg1 : arg1.IsWhole)
    (arg2 : Memref sig .tc .vmem S10000x16 .f32) (harg2 : arg2.IsWhole) (arg3 : Memref sig .tc .vmem S16 .f32) (harg3 : arg3.IsWhole)
    (arg4 : Memref sig .tc .vmem S10000x16 .f32) (harg4 : arg4.IsWhole)
    (x0 x1 : Vec F S10000x16 .f32) (x2 : Vec F S16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (relu1 x0 x1 x2)) -∗ K ⟨⟩))
      ⊢ wp frame (wpE (defs₀ (F := F)) Variants.none c none) E (cc1__combine_relu_kernel i arg1 harg1 arg2 harg2 arg3 harg3 arg4 harg4) K := by
  simp only [cc1__combine_relu_kernel_eq_skeleton]; unfold cc1__combine_relu_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S10000x16.size (by rfl))

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => relu1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := rfl
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = relu1 (blk1 V c 0 t) (blk1 V c 1 t) (blk1 V c 2 t) := by dsimp only [dat1]
theorem dat1_before0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
theorem dat1_before1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
theorem dat1_before2 (c : Dev nD) (t : Fin cfg1.N) (d) : (dat1 V c).before 2 t d = blk1 V c 2 t :=
  ((dat1 V c).before_in_eq_fetched 2 rfl (fun _ => rfl) (fun _ _ _ => rfl) (fun _ => rfl) t d).trans rfl

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2]
  rw [show (dat1 V c).Φ t.succ = (dat1 V c).Φ t.castSucc from rfl,
    show (dat1 V c).owesAt () t.succ = (dat1 V c).owesAt () t.castSucc from rfl, dat1_after0, dat1_after1, dat1_after2, dat1_after3]
  iintro ⟨HΦ, Ho, ⟨%d0, H0⟩, ⟨%d1, H1⟩, ⟨%d2, H2⟩, ⟨%d3, H3⟩⟩
  iapply (body1_runs c Set.univ _ _ _ _ _ _ _ _ _ (blk1 V c 0 t) (blk1 V c 1 t) (blk1 V c 2 t) _)
  iframe H0 H1 H2
  isplitl [H3]; · iexists _; iexact H3
  iintro ⟨H0, H1, H2, H3⟩
  iframe

theorem obligation1 (c : Dev nD) : BodyObligation (dat1 (F := F) V c) (defs₀ (F := F)) Variants.none () Set.univ := fun t => by
  rw [bigSep_W1, bigSep_W1]
  exact body1_at V c t

end

end Cert.Kernel.Launches

end
-- ==== Proof.KFrameR2a.lean ====
import proofs.«412654_j20461224198763_3_alg».proof.Proof.Gen.Kernel.Launch
import proofs.«412654_j20461224198763_3_alg».proof.Proof.Gen.Kernel.Skeleton
import proofs.«412654_j20461224198763_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

abbrev first2 (i : grid2.Coords) : Prop := (Scalar.cmpi .ne (Scalar.extui (Scalar.cmpi .eq (BitVec.ofNat 32 (i 0).val) 0#32)) 0#32) = 1#1
theorem first2_iff : ∀ t : Fin cfg2.N, first2 (grid2.coords t) ↔ t.val = 0 :=
  (by decide +kernel : ∀ t : Fin grid2.N, first2 (grid2.coords t) ↔ t.val = 0)
abbrev last2 (i : grid2.Coords) : Prop := k2_cond2 i = 1#1
theorem last2_iff : ∀ t : Fin cfg2.N, last2 (grid2.coords t) ↔ t.val = 9 :=
  (by decide +kernel : ∀ t : Fin grid2.N, last2 (grid2.coords t) ↔ t.val = 9)

theorem live2 : ∀ (w : Fin cfg2.W) (t : Fin cfg2.N), w.val < 5 ∨ last2 (grid2.coords t) → cfg2.idle w (grid2.coords t) = false := by decide +kernel
theorem idle2 : ∀ (w : Fin cfg2.W) (t : Fin cfg2.N), 5 ≤ w.val → ¬last2 (grid2.coords t) → cfg2.idle w (grid2.coords t) = true ∧ (cfg2.win w).flush t = false := by decide +kernel

abbrev ms2_0 (t : Fin cfg2.N) : Memref sig .tc .vmem S10000x16 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S10000x1 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x16 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev sc2_0 : Memref sig .tc .vmem S128x16 .f32 := Memref.whole cc2_scratch0
abbrev sc2_1 : Memref sig .tc .vmem S1x128 .f32 := Memref.whole cc2_scratch1

-- A whole buffer holding the raw contents that read `X` is owned at `X`.
theorem owns_unread (c : Dev nD) {s : Shape} {e : EltTy} (m : Memref sig .tc .vmem s e) (h : m.IsWhole) (X : Vec F s e) :
    (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
  iintro H; iexists _; isplitr; · ipureintro; exact h.read_unread _
  iexact H

section
variable (c : Dev nD) (i : grid2.Coords) (arg1 : Memref sig .tc .vmem S10000x16 .f32) (harg1 : arg1.IsWhole) (arg2 : Memref sig .tc .vmem S10000x16 .f32) (harg2 : arg2.IsWhole) (arg3 : Memref sig .tc .vmem S16x16 .f32) (harg3 : arg3.IsWhole) (arg4 : Memref sig .tc .vmem S16 .f32) (harg4 : arg4.IsWhole) (arg5 : Memref sig .tc .vmem S10000x1 .i32) (harg5 : arg5.IsWhole) (arg6 : Memref sig .tc .vmem S128x16 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x128 .f32) (harg9 : arg9.IsWhole)

set_option maxHeartbeats 4000000 in
noncomputable def run2_first (hc0 : first2 i) (hc1 : ¬last2 i)
    (x0 x1 : Vec F S10000x16 .f32) (x2 : Vec F S16x16 .f32) (x3 : Vec F S16 .f32) (x4 : Vec F S10000x1 .i32) :
    Σ' (LS0 : List (View.Piece (Elt F) S128x16 .f32)), { LS1 : List (View.Piece (Elt F) S1x128 .f32) //
      ∀ (xi5 : Vec F S128x16 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__layer2_pool_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc2__layer2_pool_kernel_eq_skeleton]; unfold cc2__layer2_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]; · iapply owns_unread c _ harg1; iexact H0
    isplitl [H1]; · iapply owns_unread c _ harg2; iexact H1
    isplitl [H2]; · iapply owns_unread c _ harg3; iexact H2
    isplitl [H3]; · iapply owns_unread c _ harg4; iexact H3
    isplitl [H4]; · iapply owns_unread c _ harg5; iexact H4
    isplitl [H5]; · iapply owns_unread c _ harg6; iexact H5
    isplitl [H6]; · iapply owns_unread c _ harg7; iexact H6
    isplitl [HS0]; · iexists _; iexact HS0
    iexists _; iexact HS1

set_option maxHeartbeats 4000000 in
noncomputable def run2_mid (hc0 : ¬first2 i) (hc1 : ¬last2 i)
    (x0 x1 : Vec F S10000x16 .f32) (x2 : Vec F S16x16 .f32) (x3 : Vec F S16 .f32) (x4 : Vec F S10000x1 .i32) (xs0 : Vec F S128x16 .f32) (xs1 : Vec F S1x128 .f32) :
    Σ' (LS0 : List (View.Piece (Elt F) S128x16 .f32)), { LS1 : List (View.Piece (Elt F) S1x128 .f32) //
      ∀ (xi5 : Vec F S128x16 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__layer2_pool_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc2__layer2_pool_kernel_eq_skeleton]; unfold cc2__layer2_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]; · iapply owns_unread c _ harg1; iexact H0
    isplitl [H1]; · iapply owns_unread c _ harg2; iexact H1
    isplitl [H2]; · iapply owns_unread c _ harg3; iexact H2
    isplitl [H3]; · iapply owns_unread c _ harg4; iexact H3
    isplitl [H4]; · iapply owns_unread c _ harg5; iexact H4
    isplitl [H5]; · iapply owns_unread c _ harg6; iexact H5
    isplitl [H6]; · iapply owns_unread c _ harg7; iexact H6
    isplitl [HS0]; · iexists _; iexact HS0
    iexists _; iexact HS1

set_option maxHeartbeats 4000000 in
noncomputable def run2_last (hc0 : ¬first2 i) (hc1 : last2 i)
    (x0 x1 : Vec F S10000x16 .f32) (x2 : Vec F S16x16 .f32) (x3 : Vec F S16 .f32) (x4 : Vec F S10000x1 .i32) (xs0 : Vec F S128x16 .f32) (xs1 : Vec F S1x128 .f32) :
    Σ' (L5 : List (View.Piece (Elt F) S128x16 .f32)) (L6 : List (View.Piece (Elt F) S1x128 .f32)) (LS0 : List (View.Piece (Elt F) S128x16 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__layer2_pool_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc2__layer2_pool_kernel_eq_skeleton]; unfold cc2__layer2_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg8.eq_unread hfs0; obtain rfl := harg9.eq_unread hfs1
    sl_exec (disch := first | exact hc0 | exact hc1)
    sl_step
    iapply Hk
    isplitl [H0]; · iapply owns_unread c _ harg1; iexact H0
    isplitl [H1]; · iapply owns_unread c _ harg2; iexact H1
    isplitl [H2]; · iapply owns_unread c _ harg3; iexact H2
    isplitl [H3]; · iapply owns_unread c _ harg4; iexact H3
    isplitl [H4]; · iapply owns_unread c _ harg5; iexact H4
    isplitl [H5]; · iexists _; iexact H5
    isplitl [H6]; · iexists _; iexact H6
    isplitl [HS0]; · iexists _; iexact HS0
    iexists _; iexact HS1

end

end Cert.Kernel.Launches

end
-- ==== Proof.KFrameR2b.lean ====
import proofs.«412654_j20461224198763_3_alg».proof.Proof.KFrameR2a

set_option maxRecDepth 16384

noncomputable section

namespace Cert.Kernel.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

def rest2 (c : Dev nD) : sProp 𝕄 :=
  iprop(Pipeline.scopedRestBut (Ix := Unit) (Name := ℕ) (U := UR sig nD τ) (Lvl := ℕ) (Val := Elt F) spec2 c [cc2_scratch0, cc2_scratch1] ∗ ∃ r, prngReg c r)

-- What every launch keeps is the two scratch buffers at anything and the rest.
theorem PhiA2_eq (c : Dev nD) : (Pipeline.ΦA spec2 c : sProp 𝕄)
    = iprop((((∃ d, owns (c : Thread nD τ) sc2_0 fullShare d) ∗ (∃ d, owns (c : Thread nD τ) sc2_1 fullShare d)) ∗ Pipeline.scopedRestBut (Ix := Unit) (Name := ℕ) (U := UR sig nD τ) (Lvl := ℕ) (Val := Elt F) spec2 c [cc2_scratch0, cc2_scratch1]) ∗ ∃ r, prngReg c r) := by
  unfold Pipeline.ΦA
  rw [Pipeline.scopedRest_split_of_list spec2 c [cc2_scratch0, cc2_scratch1] (by decide) (by decide)]
  simp only [sc2_0, sc2_1, owns_whole, bigSepL_cons_cons, bigSepL_singleton]; try rfl

theorem PhiA2_open (c : Dev nD) : (Pipeline.ΦA spec2 c : sProp 𝕄)
    ⊢ iprop((∃ d, owns (c : Thread nD τ) sc2_0 fullShare d) ∗ (∃ d, owns (c : Thread nD τ) sc2_1 fullShare d) ∗ rest2 (F := F) c) := by
  rw [PhiA2_eq]; unfold rest2; iintro ⟨⟨⟨H0, H1⟩, Hr⟩, Hg⟩; iframe
theorem PhiA2_close (c : Dev nD) : iprop((∃ d, owns (c : Thread nD τ) sc2_0 fullShare d) ∗ (∃ d, owns (c : Thread nD τ) sc2_1 fullShare d) ∗ rest2 (F := F) c)
    ⊢ (Pipeline.ΦA spec2 c : sProp 𝕄) := by
  rw [PhiA2_eq]; unfold rest2; iintro ⟨H0, H1, Hr, Hg⟩; iframe

-- A buffer whose stores tile it reads as the stores' own array.
theorem owns_tiled (c : Dev nD) {s : Shape} {e : EltTy} {m : Memref sig .tc .vmem s e} {L : List (View.Piece (Elt F) s e)} {f : m.view.ty.Contents (Elt F)} :
    iprop(⌜View.Piece.tiledL L s.size = true⌝ ∗ (m.view.loc (c : Thread nD τ) ↦[m.view.set]{fullShare} m.view.writes (Elt F) f L) : sProp 𝕄)
      ⊢ owns (c : Thread nD τ) m fullShare (View.canon L) := by
  unfold owns; iintro ⟨%h, H⟩; iexists _; isplitr
  swap; · iexact H
  ipureintro; exact View.read_writes_eq_canon _ _ _ (View.cover_of_tiledL _ _ h)

section
variable (c : Dev nD) (i : grid2.Coords) (arg1 : Memref sig .tc .vmem S10000x16 .f32) (harg1 : arg1.IsWhole) (arg2 : Memref sig .tc .vmem S10000x16 .f32) (harg2 : arg2.IsWhole) (arg3 : Memref sig .tc .vmem S16x16 .f32) (harg3 : arg3.IsWhole) (arg4 : Memref sig .tc .vmem S16 .f32) (harg4 : arg4.IsWhole) (arg5 : Memref sig .tc .vmem S10000x1 .i32) (harg5 : arg5.IsWhole) (arg6 : Memref sig .tc .vmem S128x16 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x128 .f32) (harg9 : arg9.IsWhole)

section
variable (hc0 : first2 i) (hc1 : ¬last2 i) (x0 x1 : Vec F S10000x16 .f32) (x2 : Vec F S16x16 .f32) (x3 : Vec F S16 .f32) (x4 : Vec F S10000x1 .i32)
def s0_first : Vec F S128x16 .f32 := View.canon (run2_first c i arg1 harg1 arg2 harg2 arg3 harg3 arg4 harg4 arg5 harg5 arg6 harg6 arg7 harg7 arg8 harg8 arg9 harg9 hc0 hc1 x0 x1 x2 x3 x4).1
def s1_first : Vec F S1x128 .f32 := View.canon (run2_first c i arg1 harg1 arg2 harg2 arg3 harg3 arg4 harg4 arg5 harg5 arg6 harg6 arg7 harg7 arg8 harg8 arg9 harg9 hc0 hc1 x0 x1 x2 x3 x4).2.1
end

section
variable (hc0 : ¬first2 i) (hc1 : ¬last2 i) (x0 x1 : Vec F S10000x16 .f32) (x2 : Vec F S16x16 .f32) (x3 : Vec F S16 .f32) (x4 : Vec F S10000x1 .i32) (xs0 : Vec F S128x16 .f32) (xs1 : Vec F S1x128 .f32)
def s0_mid : Vec F S128x16 .f32 := View.canon (run2_mid c i arg1 harg1 arg2 harg2 arg3 harg3 arg4 harg4 arg5 harg5 arg6 harg6 arg7 harg7 arg8 harg8 arg9 harg9 hc0 hc1 x0 x1 x2 x3 x4 xs0 xs1).1
def s1_mid : Vec F S1x128 .f32 := View.canon (run2_mid c i arg1 harg1 arg2 harg2 arg3 harg3 arg4 harg4 arg5 harg5 arg6 harg6 arg7 harg7 arg8 harg8 arg9 harg9 hc0 hc1 x0 x1 x2 x3 x4 xs0 xs1).2.1
end

section
variable (hc0 : ¬first2 i) (hc1 : last2 i) (x0 x1 : Vec F S10000x16 .f32) (x2 : Vec F S16x16 .f32) (x3 : Vec F S16 .f32) (x4 : Vec F S10000x1 .i32) (xs0 : Vec F S128x16 .f32) (xs1 : Vec F S1x128 .f32)
def o5_last : Vec F S128x16 .f32 := View.canon (run2_last c i arg1 harg1 arg2 harg2 arg3 harg3 arg4 harg4 arg5 harg5 arg6 harg6 arg7 harg7 arg8 harg8 arg9 harg9 hc0 hc1 x0 x1 x2 x3 x4 xs0 xs1).1
def o6_last : Vec F S1x128 .f32 := View.canon (run2_last c i arg1 harg1 arg2 harg2 arg3 harg3 arg4 harg4 arg5 harg5 arg6 harg6 arg7 harg7 arg8 harg8 arg9 harg9 hc0 hc1 x0 x1 x2 x3 x4 xs0 xs1).2.1
def s0_last : Vec F S128x16 .f32 := View.canon (run2_last c i arg1 harg1 arg2 harg2 arg3 harg3 arg4 harg4 arg5 harg5 arg6 harg6 arg7 harg7 arg8 harg8 arg9 harg9 hc0 hc1 x0 x1 x2 x3 x4 xs0 xs1).2.2.1
def s1_last : Vec F S1x128 .f32 := View.canon (run2_last c i arg1 harg1 arg2 harg2 arg3 harg3 arg4 harg4 arg5 harg5 arg6 harg6 arg7 harg7 arg8 harg8 arg9 harg9 hc0 hc1 x0 x1 x2 x3 x4 xs0 xs1).2.2.2.1
end

end

def idle5 : Vec F S128x16 .f32 := View.canon []
def idle6 : Vec F S1x128 .f32 := View.canon []

theorem N2_eq : cfg2.N = 10 := N_2
theorem first_of (t : Fin cfg2.N) (h : t.val = 0) : first2 (grid2.coords t) := (first2_iff t).mpr h
theorem notFirst_of (t : Fin cfg2.N) (h : t.val ≠ 0) : ¬first2 (grid2.coords t) := mt (first2_iff t).mp h
theorem last_of (t : Fin cfg2.N) (h : t.val = 9) : last2 (grid2.coords t) := (last2_iff t).mpr h
theorem notLast_of (t : Fin cfg2.N) (h : t.val ≠ 9) : ¬last2 (grid2.coords t) := mt (last2_iff t).mp h

section
variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- A function of the body's coordinate, its nine buffers, its two conditions and the five blocks read, at point `t`'s own.
abbrev at2 {γ δ : grid2.Coords → Prop} {ρ : Sort _} (c : Dev nD) (t : Fin cfg2.N)
    (f : ∀ (i : grid2.Coords) (a1 : Memref sig .tc .vmem S10000x16 .f32) (_ : a1.IsWhole) (a2 : Memref sig .tc .vmem S10000x16 .f32) (_ : a2.IsWhole) (a3 : Memref sig .tc .vmem S16x16 .f32) (_ : a3.IsWhole) (a4 : Memref sig .tc .vmem S16 .f32) (_ : a4.IsWhole) (a5 : Memref sig .tc .vmem S10000x1 .i32) (_ : a5.IsWhole) (a6 : Memref sig .tc .vmem S128x16 .f32) (_ : a6.IsWhole) (a7 : Memref sig .tc .vmem S1x128 .f32) (_ : a7.IsWhole) (a8 : Memref sig .tc .vmem S128x16 .f32) (_ : a8.IsWhole) (a9 : Memref sig .tc .vmem S1x128 .f32) (_ : a9.IsWhole),
      γ i → δ i → Vec F S10000x16 .f32 → Vec F S10000x16 .f32 → Vec F S16x16 .f32 → Vec F S16 .f32 → Vec F S10000x1 .i32 → ρ)
    (h0 : γ (grid2.coords t)) (h1 : δ (grid2.coords t)) : ρ :=
  f (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) h0 h1 (blk2 V c 0 t) (blk2 V c 1 t) (blk2 V c 2 t) (blk2 V c 3 t) (blk2 V c 4 t)

def left2 (c : Dev nD) : (n : ℕ) → n < cfg2.N → Vec F S128x16 .f32 × Vec F S1x128 .f32 × Vec F S128x16 .f32 × Vec F S1x128 .f32
  | 0, hn => (idle5, idle6, at2 V c ⟨0, hn⟩ (s0_first c) (first_of _ rfl) (notLast_of _ (Nat.succ_ne_zero 8).symm), at2 V c ⟨0, hn⟩ (s1_first c) (first_of _ rfl) (notLast_of _ (Nat.succ_ne_zero 8).symm))
  | n + 1, hn =>
    if h : n + 1 = 9 then
      (at2 V c ⟨n + 1, hn⟩ (o5_last c) (notFirst_of _ (Nat.succ_ne_zero n)) (last_of _ h) (left2 c n (Nat.lt_of_succ_lt hn)).2.2.1 (left2 c n (Nat.lt_of_succ_lt hn)).2.2.2,
       at2 V c ⟨n + 1, hn⟩ (o6_last c) (notFirst_of _ (Nat.succ_ne_zero n)) (last_of _ h) (left2 c n (Nat.lt_of_succ_lt hn)).2.2.1 (left2 c n (Nat.lt_of_succ_lt hn)).2.2.2,
       at2 V c ⟨n + 1, hn⟩ (s0_last c) (notFirst_of _ (Nat.succ_ne_zero n)) (last_of _ h) (left2 c n (Nat.lt_of_succ_lt hn)).2.2.1 (left2 c n (Nat.lt_of_succ_lt hn)).2.2.2,
       at2 V c ⟨n + 1, hn⟩ (s1_last c) (notFirst_of _ (Nat.succ_ne_zero n)) (last_of _ h) (left2 c n (Nat.lt_of_succ_lt hn)).2.2.1 (left2 c n (Nat.lt_of_succ_lt hn)).2.2.2)
    else
      (idle5, idle6,
       at2 V c ⟨n + 1, hn⟩ (s0_mid c) (notFirst_of _ (Nat.succ_ne_zero n)) (notLast_of _ h) (left2 c n (Nat.lt_of_succ_lt hn)).2.2.1 (left2 c n (Nat.lt_of_succ_lt hn)).2.2.2,
       at2 V c ⟨n + 1, hn⟩ (s1_mid c) (notFirst_of _ (Nat.succ_ne_zero n)) (notLast_of _ h) (left2 c n (Nat.lt_of_succ_lt hn)).2.2.1 (left2 c n (Nat.lt_of_succ_lt hn)).2.2.2)

abbrev prev2 (c : Dev nD) (t : Fin cfg2.N) := left2 V c (t.val - 1) (Nat.lt_of_le_of_lt (Nat.sub_le _ _) t.isLt)

theorem left2_first (c : Dev nD) (t : Fin cfg2.N) (h : t.val = 0) :
    left2 V c t.val t.isLt = (idle5, idle6,
      s0_first c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (first_of t h) (notLast_of t (by omega)) (blk2 V c 0 t) (blk2 V c 1 t) (blk2 V c 2 t) (blk2 V c 3 t) (blk2 V c 4 t),
      s1_first c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (first_of t h) (notLast_of t (by omega)) (blk2 V c 0 t) (blk2 V c 1 t) (blk2 V c 2 t) (blk2 V c 3 t) (blk2 V c 4 t)) := by
  obtain ⟨n, hn⟩ := t
  cases n with
  | zero => rfl
  | succ n => exact absurd h (Nat.succ_ne_zero n)

theorem left2_mid (c : Dev nD) (t : Fin cfg2.N) (h0 : t.val ≠ 0) (h9 : t.val ≠ 9) :
    left2 V c t.val t.isLt = (idle5, idle6,
      s0_mid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t h0) (notLast_of t h9) (blk2 V c 0 t) (blk2 V c 1 t) (blk2 V c 2 t) (blk2 V c 3 t) (blk2 V c 4 t) (prev2 V c t).2.2.1 (prev2 V c t).2.2.2,
      s1_mid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t h0) (notLast_of t h9) (blk2 V c 0 t) (blk2 V c 1 t) (blk2 V c 2 t) (blk2 V c 3 t) (blk2 V c 4 t) (prev2 V c t).2.2.1 (prev2 V c t).2.2.2) := by
  obtain ⟨n, hn⟩ := t
  cases n with
  | zero => exact absurd rfl h0
  | succ n => exact (dif_neg (show ¬n + 1 = 9 from h9)).trans rfl

theorem left2_last (c : Dev nD) (t : Fin cfg2.N) (h9 : t.val = 9) :
    left2 V c t.val t.isLt = (
      o5_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t (by omega)) (last_of t h9) (blk2 V c 0 t) (blk2 V c 1 t) (blk2 V c 2 t) (blk2 V c 3 t) (blk2 V c 4 t) (prev2 V c t).2.2.1 (prev2 V c t).2.2.2,
      o6_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t (by omega)) (last_of t h9) (blk2 V c 0 t) (blk2 V c 1 t) (blk2 V c 2 t) (blk2 V c 3 t) (blk2 V c 4 t) (prev2 V c t).2.2.1 (prev2 V c t).2.2.2,
      s0_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t (by omega)) (last_of t h9) (blk2 V c 0 t) (blk2 V c 1 t) (blk2 V c 2 t) (blk2 V c 3 t) (blk2 V c 4 t) (prev2 V c t).2.2.1 (prev2 V c t).2.2.2,
      s1_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t (by omega)) (last_of t h9) (blk2 V c 0 t) (blk2 V c 1 t) (blk2 V c 2 t) (blk2 V c 3 t) (blk2 V c 4 t) (prev2 V c t).2.2.1 (prev2 V c t).2.2.2) := by
  obtain ⟨n, hn⟩ := t
  cases n with
  | zero => exact absurd h9 (Nat.succ_ne_zero 8).symm
  | succ n => exact (dif_pos (show n + 1 = 9 from h9)).trans rfl

def carried2 (c : Dev nD) : (n : ℕ) → n ≤ cfg2.N → sProp 𝕄
  | 0, _ => Pipeline.ΦA spec2 c
  | n + 1, hn => iprop(owns (c : Thread nD τ) sc2_0 fullShare (left2 V c n hn).2.2.1 ∗ owns (c : Thread nD τ) sc2_1 fullShare (left2 V c n hn).2.2.2 ∗ rest2 (F := F) c)

theorem carried2_zero (c : Dev nD) (n : ℕ) (h : n ≤ cfg2.N) (hz : n = 0) : carried2 V c n h = Pipeline.ΦA spec2 c := by
  subst hz; rfl
theorem carried2_succ (c : Dev nD) (n : ℕ) (hn : n < cfg2.N) :
    carried2 V c (n + 1) hn = iprop(owns (c : Thread nD τ) sc2_0 fullShare (left2 V c n hn).2.2.1 ∗ owns (c : Thread nD τ) sc2_1 fullShare (left2 V c n hn).2.2.2 ∗ rest2 (F := F) c) := rfl
theorem carried2_pos (c : Dev nD) (n : ℕ) (h : n ≤ cfg2.N) (hz : n ≠ 0) :
    carried2 V c n h = iprop(owns (c : Thread nD τ) sc2_0 fullShare (left2 V c (n - 1) (by omega)).2.2.1 ∗ owns (c : Thread nD τ) sc2_1 fullShare (left2 V c (n - 1) (by omega)).2.2.2 ∗ rest2 (F := F) c) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => (left2 V c t.val t.isLt).1
    | ⟨6, _⟩ => (left2 V c t.val t.isLt).2.1
  Φ t := carried2 V c t.val (Nat.le_of_lt_succ t.isLt)
  q _ := fullShare
  owed _ := 0

theorem dat2_A (c : Dev nD) (w : Fin cfg2.W) : (dat2 V c).A w = V c (Pipeline.arrRef spec2 w) := by dsimp only [dat2]
theorem dat2_Phi_castSucc (c : Dev nD) (t : Fin cfg2.N) : (dat2 V c).Φ t.castSucc = carried2 V c t.val (Nat.le_of_lt t.isLt) := by
  dsimp only [dat2]; simp only [Fin.coe_castSucc]
theorem dat2_after0 (c : Dev nD) (t : Fin cfg2.N) : (dat2 V c).after 0 t = blk2 V c 0 t := rfl
theorem dat2_after1 (c : Dev nD) (t : Fin cfg2.N) : (dat2 V c).after 1 t = blk2 V c 1 t := rfl
theorem dat2_after2 (c : Dev nD) (t : Fin cfg2.N) : (dat2 V c).after 2 t = blk2 V c 2 t := rfl
theorem dat2_after3 (c : Dev nD) (t : Fin cfg2.N) : (dat2 V c).after 3 t = blk2 V c 3 t := rfl
theorem dat2_after4 (c : Dev nD) (t : Fin cfg2.N) : (dat2 V c).after 4 t = blk2 V c 4 t := rfl
theorem dat2_after5 (c : Dev nD) (t : Fin cfg2.N) : (dat2 V c).after 5 t = (left2 V c t.val t.isLt).1 := by dsimp only [dat2]
theorem dat2_after6 (c : Dev nD) (t : Fin cfg2.N) : (dat2 V c).after 6 t = (left2 V c t.val t.isLt).2.1 := by dsimp only [dat2]
theorem dat2_before (c : Dev nD) (w : Fin cfg2.W) (hw : w.val < 5) (t : Fin cfg2.N) (d) : (dat2 V c).before w t d = (dat2 V c).after w t := by
  fin_cases w <;> first
    | exact absurd hw (by decide)
    | exact ((dat2 V c).before_in_eq_fetched _ rfl (fun _ => rfl) (fun _ _ _ => rfl) (fun t => rfl) t d).trans rfl

end

end Cert.Kernel.Launches

end
-- ==== Proof.KFrameR2c.lean ====
import proofs.«412654_j20461224198763_3_alg».proof.Proof.KFrameR2b

set_option maxRecDepth 16384

noncomputable section

namespace Cert.Kernel.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

theorem leaves2 (c : Dev nD) (w : Fin cfg2.W) (t : Fin cfg2.N) (h : w.val < 5 ∨ last2 (grid2.coords t)) :
    (dat2 V c).leavesExact w t = owns (c : Thread nD τ) ((cfg2.win w).stage (cfg2.slots t w)) fullShare ((dat2 V c).after w t) := by
  unfold Dat.leavesExact; rw [live2 w t h]

set_option maxHeartbeats 4800000 in
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before V c 0 (by decide), dat2_before V c 1 (by decide), dat2_before V c 2 (by decide), dat2_before V c 3 (by decide), dat2_before V c 4 (by decide)]
  rw [show (dat2 V c).owesAt () t.succ = (dat2 V c).owesAt () t.castSucc from rfl]
  rw [show (dat2 V c).Φ t.succ = carried2 V c (t.val + 1) t.isLt from rfl, carried2_succ]
  rw [leaves2 V c 0 t (.inl (by decide)), leaves2 V c 1 t (.inl (by decide)), leaves2 V c 2 t (.inl (by decide)), leaves2 V c 3 t (.inl (by decide)), leaves2 V c 4 t (.inl (by decide))]
  simp only [dat2_after0, dat2_after1, dat2_after2, dat2_after3, dat2_after4]
  by_cases h0 : t.val = 0
  · have hf := first_of t h0
    have hnl := notLast_of t (show t.val ≠ 9 by omega)
    rw [Dat.leavesExact_idle _ 5 t (idle2 5 t (by decide) hnl).1 (idle2 5 t (by decide) hnl).2, Dat.leavesExact_idle _ 6 t (idle2 6 t (by decide) hnl).1 (idle2 6 t (by decide) hnl).2]
    rw [left2_first V c t h0]
    unfold s0_first s1_first; (try dsimp only)
    rw [dat2_Phi_castSucc V c t, carried2_zero V c _ _ h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiA2_open (F := F) c) $$ HΦ
    icases HΦ' with ⟨HS0, HS1, Hr⟩
    iapply ((run2_first c _ _ _ _ _ _ _ _ _ _ _ _ _ _ _ _ _ _ _ hf hnl (blk2 V c 0 t) (blk2 V c 1 t) (blk2 V c 2 t) (blk2 V c 3 t) (blk2 V c 4 t)).2.2 _ _ Set.univ _)
    iframe H0 H1 H2 H3 H4 H5 H6 HS0 HS1
    iintro ⟨H0, H1, H2, H3, H4, H5, H6, ⟨%es0, HS0⟩, ⟨%es1, HS1⟩⟩
    isplitl [HS0 HS1 Hr]
    · isplitl [HS0]
      · iapply owns_tiled c; isplitr; · ipureintro; sl_kernel_rfl
        iexact HS0
      isplitl [HS1]
      · iapply owns_tiled c; isplitr; · ipureintro; sl_kernel_rfl
        iexact HS1
      iexact Hr
    iframe Ho H0 H1 H2 H3 H4
    isplitl [H5]; · iexists _; iexact H5
    iexists _; iexact H6
  · have hnf := notFirst_of t h0
    rw [dat2_Phi_castSucc V c t, carried2_pos V c _ _ h0]
    by_cases h9 : t.val = 9
    · have hl := last_of t h9
      rw [leaves2 V c 5 t (.inr hl), leaves2 V c 6 t (.inr hl), dat2_after5, dat2_after6, left2_last V c t h9]
      unfold o5_last o6_last s0_last s1_last; (try dsimp only)
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩⟩
      iapply ((run2_last c _ _ _ _ _ _ _ _ _ _ _ _ _ _ _ _ _ _ _ hnf hl (blk2 V c 0 t) (blk2 V c 1 t) (blk2 V c 2 t) (blk2 V c 3 t) (blk2 V c 4 t) (prev2 V c t).2.2.1 (prev2 V c t).2.2.2).2.2.2.2 Set.univ _)
      iframe H0 H1 H2 H3 H4 HS0 HS1
      isplitl [H5]; · iexists _; iexact H5
      isplitl [H6]; · iexists _; iexact H6
      iintro ⟨H0, H1, H2, H3, H4, ⟨%e5, H5⟩, ⟨%e6, H6⟩, ⟨%es0, HS0⟩, ⟨%es1, HS1⟩⟩
      isplitl [HS0 HS1 Hr]
      · isplitl [HS0]
        · iapply owns_tiled c; isplitr; · ipureintro; sl_kernel_rfl
          iexact HS0
        isplitl [HS1]
        · iapply owns_tiled c; isplitr; · ipureintro; sl_kernel_rfl
          iexact HS1
        iexact Hr
      iframe Ho H0 H1 H2 H3 H4
      isplitl [H5]
      · iapply owns_tiled c; isplitr; · ipureintro; sl_kernel_rfl
        iexact H5
      iapply owns_tiled c; isplitr; · ipureintro; sl_kernel_rfl
      iexact H6
    · have hnl := notLast_of t h9
      rw [Dat.leavesExact_idle _ 5 t (idle2 5 t (by decide) hnl).1 (idle2 5 t (by decide) hnl).2, Dat.leavesExact_idle _ 6 t (idle2 6 t (by decide) hnl).1 (idle2 6 t (by decide) hnl).2]
      rw [left2_mid V c t h0 h9]
      unfold s0_mid s1_mid; (try dsimp only)
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩⟩
      iapply ((run2_mid c _ _ _ _ _ _ _ _ _ _ _ _ _ _ _ _ _ _ _ hnf hnl (blk2 V c 0 t) (blk2 V c 1 t) (blk2 V c 2 t) (blk2 V c 3 t) (blk2 V c 4 t) (prev2 V c t).2.2.1 (prev2 V c t).2.2.2).2.2 _ _ Set.univ _)
      iframe H0 H1 H2 H3 H4 H5 H6 HS0 HS1
      iintro ⟨H0, H1, H2, H3, H4, H5, H6, ⟨%es0, HS0⟩, ⟨%es1, HS1⟩⟩
      isplitl [HS0 HS1 Hr]
      · isplitl [HS0]
        · iapply owns_tiled c; isplitr; · ipureintro; sl_kernel_rfl
          iexact HS0
        isplitl [HS1]
        · iapply owns_tiled c; isplitr; · ipureintro; sl_kernel_rfl
          iexact HS1
        iexact Hr
      iframe Ho H0 H1 H2 H3 H4
      isplitl [H5]; · iexists _; iexact H5
      iexists _; iexact H6

theorem obligation2 (c : Dev nD) : BodyObligation (dat2 (F := F) V c) (defs₀ (F := F)) Variants.none () Set.univ := fun t => by
  rw [bigSep_W2, bigSep_W2]
  exact body2_at V c t

theorem dat2_in (c : Dev nD) : (Pipeline.ΦA spec2 c : sProp 𝕄) ⊢ (dat2 V c).Φ 0 := by
  rw [show (dat2 V c).Φ 0 = carried2 V c 0 (Nat.zero_le _) from rfl, carried2_zero V c 0 _ rfl]
  try exact Idealize.SL.BI.Entails.refl _

-- After the last point the scratch buffers' contents are forgotten.
theorem dat2_out (c : Dev nD) : (dat2 V c).Φ (Fin.last cfg2.N) ⊢ (Pipeline.ΦA spec2 c : sProp 𝕄) := by
  rw [show (dat2 V c).Φ (Fin.last cfg2.N) = carried2 V c (Fin.last cfg2.N).val (Nat.le_of_lt_succ (Fin.last cfg2.N).isLt) from rfl,
    carried2_pos V c _ _ (by rw [Fin.val_last]; have := N2_eq; omega)]
  iintro ⟨HS0, HS1, Hr⟩
  iapply (PhiA2_close (F := F) c)
  isplitl [HS0]; · iexists _; iexact HS0
  isplitl [HS1]; · iexists _; iexact HS1
  iexact Hr

end

end Cert.Kernel.Launches

end
-- ==== Proof.KFrameRun.lean ====
import proofs.«412654_j20461224198763_3_alg».proof.Proof.KFrameR0
import proofs.«412654_j20461224198763_3_alg».proof.Proof.KFrameR1
import proofs.«412654_j20461224198763_3_alg».proof.Proof.KFrameR2c
import proofs.«412654_j20461224198763_3_alg».proof.Proof.Gen.Kernel.Regions

set_option maxRecDepth 16384

noncomputable section

namespace Cert.Kernel.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's unscoped buffers at the boundaries of the seven segments: host lines and launches in turn. -/
abbrev B0 : Dev nD → Valuation τ sig (Elt F) := fun c b => m (c, b)
abbrev B1 : Dev nD → Valuation τ sig (Elt F) := fun c => StableHlo.after hostOps0 (B0 m c)
abbrev E1 : (c : Dev nD) → (b : Ref sig .tc) → Buf (Elt F) ((c : Thread nD τ).loc b) := fun c b => B1 m c b
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev B3 : Dev nD → Valuation τ sig (Elt F) := fun c => StableHlo.after hostOps1 (B2 m c)
abbrev E3 : (c : Dev nD) → (b : Ref sig .tc) → Buf (Elt F) ((c : Thread nD τ).loc b) := fun c b => B3 m c b
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev B5 : Dev nD → Valuation τ sig (Elt F) := fun c => StableHlo.after hostOps2 (B4 m c)
abbrev E5 : (c : Dev nD) → (b : Ref sig .tc) → Buf (Elt F) ((c : Thread nD τ).loc b) := fun c b => B5 m c b
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev B7 : Dev nD → Valuation τ sig (Elt F) := fun c => StableHlo.after hostOps3 (B6 m c)

/-- A launch changes its output arrays only: an input array ends as found, no other buffer is touched. -/
theorem B2_keep (c : Dev nD) (r : Ref sig .tc) (h : r ≠ main_v4) :
    B2 m c (Proc.devRef .tc r) = B1 m c (Proc.devRef .tc r) := by
  by_cases hw : ∃ w, Pipeline.arrRef spec0 w = r
  · obtain ⟨w, rfl⟩ := hw
    refine (B2_arr m c w).trans ?_
    fin_cases w <;> first | exact absurd rfl h | exact (dat0 (E1 m) c).arrAt_in _ rfl _
  · exact B2_of_ne m c r fun w e => hw ⟨w, e⟩
theorem B4_keep (c : Dev nD) (r : Ref sig .tc) (h : r ≠ main_v15) :
    B4 m c (Proc.devRef .tc r) = B3 m c (Proc.devRef .tc r) := by
  by_cases hw : ∃ w, Pipeline.arrRef spec1 w = r
  · obtain ⟨w, rfl⟩ := hw
    refine (B4_arr m c w).trans ?_
    fin_cases w <;> first | exact absurd rfl h | exact (dat1 (E3 m) c).arrAt_in _ rfl _
  · exact B4_of_ne m c r fun w e => hw ⟨w, e⟩
theorem B6_keep (c : Dev nD) (r : Ref sig .tc) (h : r ≠ main_v27_0) (h' : r ≠ main_v27_1) :
    B6 m c (Proc.devRef .tc r) = B5 m c (Proc.devRef .tc r) := by
  by_cases hw : ∃ w, Pipeline.arrRef spec2 w = r
  · obtain ⟨w, rfl⟩ := hw
    refine (B6_arr m c w).trans ?_
    fin_cases w <;> first | exact absurd rfl h | exact absurd rfl h' | exact (dat2 (E5 m) c).arrAt_in _ rfl _
  · exact B6_of_ne m c r fun w e => hw ⟨w, e⟩

/-- The buffers written before each boundary. -/
abbrev W2 : List (Ref sig .tc) := main_v4 :: hostOps0_W
abbrev W3 : List (Ref sig .tc) := hostOps1_W ++ W2
abbrev W4 : List (Ref sig .tc) := main_v15 :: W3
abbrev W5 : List (Ref sig .tc) := hostOps2_W ++ W4
abbrev W6 : List (Ref sig .tc) := main_v27_0 :: main_v27_1 :: W5
abbrev W7 : List (Ref sig .tc) := hostOps3_W ++ W6

/-- A buffer not written before a boundary holds its launch contents there. -/
theorem kept1 (c : Dev nD) (r : Ref sig .tc) (h : r ∉ hostOps0_W) : B1 m c (Proc.devRef .tc r) = m ((c : Thread nD τ).loc r) :=
  StableHlo.after_of_writes_sub hostOps0 _ hostOps0_writes h
theorem kept2 (c : Dev nD) (r : Ref sig .tc) (h : r ∉ W2) : B2 m c (Proc.devRef .tc r) = m ((c : Thread nD τ).loc r) :=
  (B2_keep m c r (List.ne_of_not_mem_cons h)).trans (kept1 m c r (List.not_mem_of_not_mem_cons h))
theorem kept3 (c : Dev nD) (r : Ref sig .tc) (h : r ∉ W3) : B3 m c (Proc.devRef .tc r) = m ((c : Thread nD τ).loc r) :=
  (StableHlo.after_of_writes_sub hostOps1 _ hostOps1_writes fun h' => h (List.mem_append_left _ h')).trans
    (kept2 m c r fun h' => h (List.mem_append_right _ h'))
theorem kept4 (c : Dev nD) (r : Ref sig .tc) (h : r ∉ W4) : B4 m c (Proc.devRef .tc r) = m ((c : Thread nD τ).loc r) :=
  (B4_keep m c r (List.ne_of_not_mem_cons h)).trans (kept3 m c r (List.not_mem_of_not_mem_cons h))
theorem kept5 (c : Dev nD) (r : Ref sig .tc) (h : r ∉ W5) : B5 m c (Proc.devRef .tc r) = m ((c : Thread nD τ).loc r) :=
  (StableHlo.after_of_writes_sub hostOps2 _ hostOps2_writes fun h' => h (List.mem_append_left _ h')).trans
    (kept4 m c r fun h' => h (List.mem_append_right _ h'))
theorem kept6 (c : Dev nD) (r : Ref sig .tc) (h : r ∉ W6) : B6 m c (Proc.devRef .tc r) = m ((c : Thread nD τ).loc r) :=
  (B6_keep m c r (List.ne_of_not_mem_cons h) (List.ne_of_not_mem_cons (List.not_mem_of_not_mem_cons h))).trans
    (kept5 m c r (List.not_mem_of_not_mem_cons (List.not_mem_of_not_mem_cons h)))
theorem kept7 (c : Dev nD) (r : Ref sig .tc) (h : r ∉ W7) : B7 m c (Proc.devRef .tc r) = m ((c : Thread nD τ).loc r) :=
  (StableHlo.after_of_writes_sub hostOps3 _ hostOps3_writes fun h' => h (List.mem_append_left _ h')).trans
    (kept6 m c r fun h' => h (List.mem_append_right _ h'))

def pdat : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱n : Variants := Variants.none
abbrev Ln : GSem nD τ sig → Finset Unit := fun _ => ∅
abbrev lvn : GSem nD τ sig → Unit → ℕ := fun _ _ => 0
abbrev Rst (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B7 m c) ∗ ∃ r, prngReg c r)

set_option backward.isDefEq.respectTransparency.types false in
/-- A launch as a segment between two boundaries: its arrays are split out of the unscoped buffers and put back, every other buffer rides along. -/
def regOf (p : Fin 3) (lw : Pipeline.LaunchFacts (nD := nD) (τ := τ) cfgs p) (Bin Bout : Dev nD → Valuation τ sig (Elt F))
    (hbody : ∀ c, Pipeline.BodyObligationLoose (pdat m p c) (defs₀ (F := F)) 𝒱n () Set.univ)
    (hq : ∀ c w, (pdat m p c).q w = fullShare) (howed : ∀ c t, (pdat m p c).owed t = 0)
    (hrec : ∀ c, (pdat m p c).recorded 0 = Set.univ)
    (hA : ∀ c w, (pdat m p c).A w = Bin c (Proc.devRef .tc (Pipeline.arrRef (Pipeline.pin (pcfgs (F := F)) adm p).spec w)))
    (harr : ∀ c w, (pdat m p c).arrAt w (Pipeline.pin (pcfgs (F := F)) adm p).N
      = Bout c (Proc.devRef .tc (Pipeline.arrRef (Pipeline.pin (pcfgs (F := F)) adm p).spec w)))
    (hrest : ∀ c b, (∀ w, Pipeline.arrRef (Pipeline.pin (pcfgs (F := F)) adm p).spec w ≠ b) → Bout c (Proc.devRef .tc b) = Bin c (Proc.devRef .tc b))
    (hin : ∀ c, (Pipeline.ΦA (Pipeline.pin (pcfgs (F := F)) adm p).spec c : sProp 𝕄) ⊢ (pdat m p c).Φ 0)
    (hout : ∀ c, (pdat m p c).Φ (Fin.last (Pipeline.pin (pcfgs (F := F)) adm p).N) ⊢ (Pipeline.ΦA (Pipeline.pin (pcfgs (F := F)) adm p).spec c : sProp 𝕄)) :
    Pipeline.RegionSeg (pcfgs (F := F)) adm (pdat m) () defs₀ 𝒱n Ln lvn p where
  win := lw.win.to₀
  block_pos := lw.block_pos
  stage_whole := lw.stage_whole
  K := PEmpty
  osem k := k.elim
  ho := Pipeline.OwnSemFacts.none _
  hbody := hbody
  hwaits := Pipeline.hwaits_of_owed_zero _ _ _ _ Ln lvn p howed
  pre c := iprop(StableHlo.held (c : Thread nD τ) (Pipeline.ucRefs τ sig) (Bin c) ∗ Rst c)
  post c := iprop(StableHlo.held (c : Thread nD τ) (Pipeline.ucRefs τ sig) (Bout c) ∗ Rst c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Bin c b)
  hentry c := by
    rw [Pipeline.ownSems0_none]
    have hsplit := Pipeline.arrays_of_unscopedBufs (p := p) (pcfgs (F := F)) adm (pdat m) lw.win lw.arr_whole c
      ((pdat m p c).share_full (hq c)) (fun b => Bin c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    rw [howed c 0]
    icases HO with ⟨%W, HO⟩; iexists W; isplitr; · ipureintro; exact fun _ _ => Or.inl (hrec c ▸ trivial)
    iexact HO
  hin c := by
    iintro ⟨Hp, -, Hr⟩
    iapply (hin c)
    unfold Pipeline.ΦA
    iframe
  hout c := by
    rw [Pipeline.ownSems0_none]
    iintro Hin
    ihave H2 := (hout c) $$ Hin
    unfold Pipeline.ΦA
    icases H2 with ⟨Hr, Hp⟩
    iframe; iempintro
  hexit c := by
    have hjoin := Pipeline.unscopedBufs_of_arrays (p := p) (pcfgs (F := F)) adm (Ix := Unit) (Name := ℕ) (U := UR sig nD τ) (Lvl := ℕ)
      lw.win lw.arr_whole c (pdat m) ((pdat m p c).share_full (hq c))
      (fun b => Bin c b) (fun b => Bout c b) ((pdat m p c).arrAt · (Pipeline.pin (pcfgs (F := F)) adm p).N) (harr c)
      fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) adm (pdat m) () defs₀ 𝒱n Ln lvn 0 :=
  regOf m 0 launch0 (B1 m) (B2 m) (fun c => (obligation0 (E1 m) c).loose) (fun _ _ => rfl) (fun _ _ => rfl) (fun _ => rfl) (fun _ _ => rfl)
    (fun c w => (B2_arr m c w).symm) (B2_of_ne m) (fun _ => .rfl) (fun _ => .rfl)
set_option backward.isDefEq.respectTransparency.types false in
def reg1 : Pipeline.RegionSeg (pcfgs (F := F)) adm (pdat m) () defs₀ 𝒱n Ln lvn 1 :=
  regOf m 1 launch1 (B3 m) (B4 m) (fun c => (obligation1 (E3 m) c).loose) (fun _ _ => rfl) (fun _ _ => rfl) (fun _ => rfl) (fun _ _ => rfl)
    (fun c w => (B4_arr m c w).symm) (B4_of_ne m) (fun _ => .rfl) (fun _ => .rfl)
set_option backward.isDefEq.respectTransparency.types false in
def reg2 : Pipeline.RegionSeg (pcfgs (F := F)) adm (pdat m) () defs₀ 𝒱n Ln lvn 2 :=
  regOf m 2 launch2 (B5 m) (B6 m) (fun c => (obligation2 (E5 m) c).loose) (fun _ _ => rfl) (fun _ _ => rfl) (fun _ => rfl) (fun _ _ => rfl)
    (fun c w => (B6_arr m c w).symm) (B6_of_ne m) (dat2_in (E5 m)) (dat2_out (E5 m))

theorem chain_end (c : Dev nD) : iprop(StableHlo.held (c : Thread nD τ) (Pipeline.ucRefs τ sig) (B7 m c) ∗ Rst (F := F) c)
    ⊢ iprop(Tend m c ∗ ∃ W, owes (c : Thread nD τ) (0 : CellTallies nD τ sig Unit) W) := by
  iintro ⟨Hh, Hp, Ho⟩
  unfold Tend
  iframe

abbrev items : List (Pipeline.Seg (pcfgs (F := F)) adm (pdat m) () defs₀ 𝒱n Ln lvn) :=
  [ .host (hostSeg hostOps0 hostOps0_sub hostOps0_fresh (B0 m)),
    .region (reg0 m),
    .host (hostSeg hostOps1 hostOps1_sub hostOps1_fresh (B2 m)),
    .region (reg1 m),
    .host (hostSeg hostOps2 hostOps2_sub hostOps2_fresh (B4 m)),
    .region (reg2 m),
    .host (hostSeg hostOps3 hostOps3_sub hostOps3_fresh (B6 m)) ]
theorem main_items (c : Dev nD) : main (F := F) c = Pipeline.Seg.run (items m) := (main_chain c).trans (by chain_rfl)

set_option backward.isDefEq.respectTransparency.types false in
/-- Every fair execution terminates, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) adm (pdat m) () cellOf_inj emb₁ defs₀ 𝒱n Ln lvn m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rst c)) (Tₙ := Tend m)
    (hch := ⟨fun _ => .rfl, fun _ => .rfl, fun _ => .rfl, fun _ => .rfl, fun _ => .rfl, fun _ => .rfl, fun _ => .rfl,
      fun c => chain_end m c⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

/-- An argument is unscoped and no segment writes it: a memory that holds the last boundary's contents holds it as launched. -/
theorem arg_end {r : Ref sig .tc} (hs : ¬ (Proc.devRef .tc r : DevRef τ sig).isScoped) (hr : r ∉ W7) {c : Dev nD} {s : (ℓ : Loc nD τ sig) → Buf (Elt F) ℓ}
    (h : ∀ b ∈ Pipeline.ucRefs τ sig, s (((c : Thread nD τ)).1, b) = B7 m c b) : s ((c.tc : Thread nD τ).loc r) = m ((c.tc : Thread nD τ).loc r) :=
  (h _ (mem_uc r hs)).trans (kept7 m c r hr)

theorem args_end {c : Dev nD} {s : (ℓ : Loc nD τ sig) → Buf (Elt F) ℓ} (h : ∀ b ∈ Pipeline.ucRefs τ sig, s (((c : Thread nD τ)).1, b) = B7 m c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8) :=
  ⟨arg_end m (by decide) (by decide) h, arg_end m (by decide) (by decide) h, arg_end m (by decide) (by decide) h,
    arg_end m (by decide) (by decide) h, arg_end m (by decide) (by decide) h, arg_end m (by decide) (by decide) h,
    arg_end m (by decide) (by decide) h, arg_end m (by decide) (by decide) h, arg_end m (by decide) (by decide) h⟩

end Cert.Kernel.Launches

end
-- ==== Proof.FrameR0.lean ====
import proofs.«412654_j20461224198763_3_alg».proof.Proof.Gen.KernelIdeal.Launch
import proofs.«412654_j20461224198763_3_alg».proof.Proof.Gen.KernelIdeal.Skeleton
import proofs.«412654_j20461224198763_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev all0_x : Rect S10000x128 := Rect.unit (s := S10000x128) ![0, 0] S10000x128.size inb_S10000x128_S10000x128_0_0
abbrev all0_w : Rect S128x16 := Rect.unit (s := S128x16) ![0, 0] S128x16.size inb_S128x16_S128x16_0_0
abbrev all0_o : Rect S10000x16 := Rect.unit (s := S10000x16) ![0, 0] S10000x16.size inb_S10000x16_S10000x16_0_0

/-- The output block the body leaves: its one whole-buffer store. -/
def prod0 (x0 : Vec F S10000x128 .f32) (x1 : Vec F S128x16 .f32) : Vec F S10000x16 .f32 :=
  View.canon [⟨all0_o, k0_pay1 (View.ld x0 all0_x) (View.ld x1 all0_w)⟩]

set_option maxHeartbeats 1000000 in
theorem body0_runs (c : Dev nD) (E : Set ℕ) (i : grid0.Coords) (arg1 : Memref sig .tc .vmem S10000x128 .f32) (harg1 : arg1.IsWhole)
    (arg2 : Memref sig .tc .vmem S128x16 .f32) (harg2 : arg2.IsWhole) (arg3 : Memref sig .tc .vmem S10000x16 .f32) (harg3 : arg3.IsWhole)
    (x0 : Vec F S10000x128 .f32) (x1 : Vec F S128x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel owns
  iintro ⟨⟨%f0, %hf0, H0⟩, ⟨%f1, %hf1, H1⟩, ⟨%d2, %f2, -, H2⟩, Hk⟩
  subst hf0 hf1
  sl_exec
  sl_step
  iapply Hk
  isplitl [H0]; · iexists f0; iframe; ipureintro; rfl
  isplitl [H1]; · iexists f1; iframe; ipureintro; rfl
  iexists _; iframe; ipureintro
  exact View.read_writes_eq_canon _ _ _ (View.cover_of_tiled _ S10000x16.size (by rfl))

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := rfl
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = prod0 (blk0 V c 0 t) (blk0 V c 1 t) := by dsimp only [dat0]
theorem dat0_before0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
theorem dat0_before1 (c : Dev nD) (t : Fin cfg0.N) (d) : (dat0 V c).before 1 t d = blk0 V c 1 t :=
  ((dat0 V c).before_in_eq_fetched 1 rfl (fun _ => rfl) (fun _ _ _ => rfl) (fun _ => rfl) t d).trans rfl

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl, dat0_after0, dat0_after1, dat0_after2]
  iintro ⟨HΦ, Ho, ⟨%d0, H0⟩, ⟨%d1, H1⟩, ⟨%d2, H2⟩⟩
  iapply (body0_runs c Set.univ _ _ _ _ _ _ _ (blk0 V c 0 t) (blk0 V c 1 t) _)
  iframe H0 H1
  isplitl [H2]; · iexists _; iexact H2
  iintro ⟨H0, H1, H2⟩
  iframe

theorem obligation0 (c : Dev nD) : BodyObligation (dat0 (F := F) V c) (defs₀ (F := F)) Variants.none () Set.univ := fun t => by
  rw [bigSep_W0, bigSep_W0]
  exact body0_at V c t

end

end Cert.KernelIdeal.Launches

end
-- ==== Proof.FrameR1.lean ====
import proofs.«412654_j20461224198763_3_alg».proof.Proof.Gen.KernelIdeal.Launch
import proofs.«412654_j20461224198763_3_alg».proof.Proof.Gen.KernelIdeal.Skeleton
import proofs.«412654_j20461224198763_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev all1_m : Rect S10000x16 := Rect.unit (s := S10000x16) ![0, 0] S10000x16.size inb_S10000x16_S10000x16_0_0
abbrev all1_b : Rect S16 := Rect.unit (s := S16) ![0] S16.size inb_S16_S16_0

/-- The output block the body leaves: its one whole-buffer store. -/
def relu1 (x0 x1 : Vec F S10000x16 .f32) (x2 : Vec F S16 .f32) : Vec F S10000x16 .f32 :=
  View.canon [⟨all1_m, k1_pay1 (View.ld x0 all1_m) (View.ld x1 all1_m) (View.ld x2 all1_b)⟩]

set_option maxHeartbeats 1000000 in
theorem body1_runs (c : Dev nD) (E : Set ℕ) (i : grid1.Coords) (arg1 : Memref sig .tc .vmem S10000x16 .f32) (harg1 : arg1.IsWhole)
    (arg2 : Memref sig .tc .vmem S10000x16 .f32) (harg2 : arg2.IsWhole) (arg3 : Memref sig .tc .vmem S16 .f32) (harg3 : arg3.IsWhole)
    (arg4 : Memref sig .tc .vmem S10000x16 .f32) (harg4 : arg4.IsWhole)
    (x0 x1 : Vec F S10000x16 .f32) (x2 : Vec F S16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (relu1 x0 x1 x2)) -∗ K ⟨⟩))
      ⊢ wp frame (wpE (defs₀ (F := F)) Variants.none c none) E (cc1__combine_relu_kernel i arg1 harg1 arg2 harg2 arg3 harg3 arg4 harg4) K := by
  simp only [cc1__combine_relu_kernel_eq_skeleton]; unfold cc1__combine_relu_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S10000x16.size (by rfl))

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => relu1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := rfl
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = relu1 (blk1 V c 0 t) (blk1 V c 1 t) (blk1 V c 2 t) := by dsimp only [dat1]
theorem dat1_before0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
theorem dat1_before1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
theorem dat1_before2 (c : Dev nD) (t : Fin cfg1.N) (d) : (dat1 V c).before 2 t d = blk1 V c 2 t :=
  ((dat1 V c).before_in_eq_fetched 2 rfl (fun _ => rfl) (fun _ _ _ => rfl) (fun _ => rfl) t d).trans rfl

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2]
  rw [show (dat1 V c).Φ t.succ = (dat1 V c).Φ t.castSucc from rfl,
    show (dat1 V c).owesAt () t.succ = (dat1 V c).owesAt () t.castSucc from rfl, dat1_after0, dat1_after1, dat1_after2, dat1_after3]
  iintro ⟨HΦ, Ho, ⟨%d0, H0⟩, ⟨%d1, H1⟩, ⟨%d2, H2⟩, ⟨%d3, H3⟩⟩
  iapply (body1_runs c Set.univ _ _ _ _ _ _ _ _ _ (blk1 V c 0 t) (blk1 V c 1 t) (blk1 V c 2 t) _)
  iframe H0 H1 H2
  isplitl [H3]; · iexists _; iexact H3
  iintro ⟨H0, H1, H2, H3⟩
  iframe

theorem obligation1 (c : Dev nD) : BodyObligation (dat1 (F := F) V c) (defs₀ (F := F)) Variants.none () Set.univ := fun t => by
  rw [bigSep_W1, bigSep_W1]
  exact body1_at V c t

end

end Cert.KernelIdeal.Launches

end
-- ==== Proof.FrameR2a.lean ====
import proofs.«412654_j20461224198763_3_alg».proof.Proof.Gen.KernelIdeal.Launch
import proofs.«412654_j20461224198763_3_alg».proof.Proof.Gen.KernelIdeal.Skeleton
import proofs.«412654_j20461224198763_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

abbrev first2 (i : grid2.Coords) : Prop := (Scalar.cmpi .ne (Scalar.extui (Scalar.cmpi .eq (BitVec.ofNat 32 (i 0).val) 0#32)) 0#32) = 1#1
theorem first2_iff : ∀ t : Fin cfg2.N, first2 (grid2.coords t) ↔ t.val = 0 :=
  (by decide +kernel : ∀ t : Fin grid2.N, first2 (grid2.coords t) ↔ t.val = 0)
abbrev last2 (i : grid2.Coords) : Prop := k2_cond2 i = 1#1
theorem last2_iff : ∀ t : Fin cfg2.N, last2 (grid2.coords t) ↔ t.val = 9 :=
  (by decide +kernel : ∀ t : Fin grid2.N, last2 (grid2.coords t) ↔ t.val = 9)

theorem live2 : ∀ (w : Fin cfg2.W) (t : Fin cfg2.N), w.val < 5 ∨ last2 (grid2.coords t) → cfg2.idle w (grid2.coords t) = false := by decide +kernel
theorem idle2 : ∀ (w : Fin cfg2.W) (t : Fin cfg2.N), 5 ≤ w.val → ¬last2 (grid2.coords t) → cfg2.idle w (grid2.coords t) = true ∧ (cfg2.win w).flush t = false := by decide +kernel

abbrev ms2_0 (t : Fin cfg2.N) : Memref sig .tc .vmem S10000x16 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S10000x1 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x16 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev sc2_0 : Memref sig .tc .vmem S128x16 .f32 := Memref.whole cc2_scratch0
abbrev sc2_1 : Memref sig .tc .vmem S1x128 .f32 := Memref.whole cc2_scratch1

-- A whole buffer holding the raw contents that read `X` is owned at `X`.
theorem owns_unread (c : Dev nD) {s : Shape} {e : EltTy} (m : Memref sig .tc .vmem s e) (h : m.IsWhole) (X : Vec F s e) :
    (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
  iintro H; iexists _; isplitr; · ipureintro; exact h.read_unread _
  iexact H

section
variable (c : Dev nD) (i : grid2.Coords) (arg1 : Memref sig .tc .vmem S10000x16 .f32) (harg1 : arg1.IsWhole) (arg2 : Memref sig .tc .vmem S10000x16 .f32) (harg2 : arg2.IsWhole) (arg3 : Memref sig .tc .vmem S16x16 .f32) (harg3 : arg3.IsWhole) (arg4 : Memref sig .tc .vmem S16 .f32) (harg4 : arg4.IsWhole) (arg5 : Memref sig .tc .vmem S10000x1 .i32) (harg5 : arg5.IsWhole) (arg6 : Memref sig .tc .vmem S128x16 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x128 .f32) (harg9 : arg9.IsWhole)

set_option maxHeartbeats 4000000 in
noncomputable def run2_first (hc0 : first2 i) (hc1 : ¬last2 i)
    (x0 x1 : Vec F S10000x16 .f32) (x2 : Vec F S16x16 .f32) (x3 : Vec F S16 .f32) (x4 : Vec F S10000x1 .i32) :
    Σ' (LS0 : List (View.Piece (Elt F) S128x16 .f32)), { LS1 : List (View.Piece (Elt F) S1x128 .f32) //
      ∀ (xi5 : Vec F S128x16 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__layer2_pool_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc2__layer2_pool_kernel_eq_skeleton]; unfold cc2__layer2_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]; · iapply owns_unread c _ harg1; iexact H0
    isplitl [H1]; · iapply owns_unread c _ harg2; iexact H1
    isplitl [H2]; · iapply owns_unread c _ harg3; iexact H2
    isplitl [H3]; · iapply owns_unread c _ harg4; iexact H3
    isplitl [H4]; · iapply owns_unread c _ harg5; iexact H4
    isplitl [H5]; · iapply owns_unread c _ harg6; iexact H5
    isplitl [H6]; · iapply owns_unread c _ harg7; iexact H6
    isplitl [HS0]; · iexists _; iexact HS0
    iexists _; iexact HS1

set_option maxHeartbeats 4000000 in
noncomputable def run2_mid (hc0 : ¬first2 i) (hc1 : ¬last2 i)
    (x0 x1 : Vec F S10000x16 .f32) (x2 : Vec F S16x16 .f32) (x3 : Vec F S16 .f32) (x4 : Vec F S10000x1 .i32) (xs0 : Vec F S128x16 .f32) (xs1 : Vec F S1x128 .f32) :
    Σ' (LS0 : List (View.Piece (Elt F) S128x16 .f32)), { LS1 : List (View.Piece (Elt F) S1x128 .f32) //
      ∀ (xi5 : Vec F S128x16 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__layer2_pool_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc2__layer2_pool_kernel_eq_skeleton]; unfold cc2__layer2_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]; · iapply owns_unread c _ harg1; iexact H0
    isplitl [H1]; · iapply owns_unread c _ harg2; iexact H1
    isplitl [H2]; · iapply owns_unread c _ harg3; iexact H2
    isplitl [H3]; · iapply owns_unread c _ harg4; iexact H3
    isplitl [H4]; · iapply owns_unread c _ harg5; iexact H4
    isplitl [H5]; · iapply owns_unread c _ harg6; iexact H5
    isplitl [H6]; · iapply owns_unread c _ harg7; iexact H6
    isplitl [HS0]; · iexists _; iexact HS0
    iexists _; iexact HS1

set_option maxHeartbeats 4000000 in
noncomputable def run2_last (hc0 : ¬first2 i) (hc1 : last2 i)
    (x0 x1 : Vec F S10000x16 .f32) (x2 : Vec F S16x16 .f32) (x3 : Vec F S16 .f32) (x4 : Vec F S10000x1 .i32) (xs0 : Vec F S128x16 .f32) (xs1 : Vec F S1x128 .f32) :
    Σ' (L5 : List (View.Piece (Elt F) S128x16 .f32)) (L6 : List (View.Piece (Elt F) S1x128 .f32)) (LS0 : List (View.Piece (Elt F) S128x16 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__layer2_pool_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc2__layer2_pool_kernel_eq_skeleton]; unfold cc2__layer2_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg8.eq_unread hfs0; obtain rfl := harg9.eq_unread hfs1
    sl_exec (disch := first | exact hc0 | exact hc1)
    sl_step
    iapply Hk
    isplitl [H0]; · iapply owns_unread c _ harg1; iexact H0
    isplitl [H1]; · iapply owns_unread c _ harg2; iexact H1
    isplitl [H2]; · iapply owns_unread c _ harg3; iexact H2
    isplitl [H3]; · iapply owns_unread c _ harg4; iexact H3
    isplitl [H4]; · iapply owns_unread c _ harg5; iexact H4
    isplitl [H5]; · iexists _; iexact H5
    isplitl [H6]; · iexists _; iexact H6
    isplitl [HS0]; · iexists _; iexact HS0
    iexists _; iexact HS1

end

end Cert.KernelIdeal.Launches

end
-- ==== Proof.FrameR2b.lean ====
import proofs.«412654_j20461224198763_3_alg».proof.Proof.FrameR2a

set_option maxRecDepth 16384

noncomputable section

namespace Cert.KernelIdeal.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

def rest2 (c : Dev nD) : sProp 𝕄 :=
  iprop(Pipeline.scopedRestBut (Ix := Unit) (Name := ℕ) (U := UR sig nD τ) (Lvl := ℕ) (Val := Elt F) spec2 c [cc2_scratch0, cc2_scratch1] ∗ ∃ r, prngReg c r)

-- What every launch keeps is the two scratch buffers at anything and the rest.
theorem PhiA2_eq (c : Dev nD) : (Pipeline.ΦA spec2 c : sProp 𝕄)
    = iprop((((∃ d, owns (c : Thread nD τ) sc2_0 fullShare d) ∗ (∃ d, owns (c : Thread nD τ) sc2_1 fullShare d)) ∗ Pipeline.scopedRestBut (Ix := Unit) (Name := ℕ) (U := UR sig nD τ) (Lvl := ℕ) (Val := Elt F) spec2 c [cc2_scratch0, cc2_scratch1]) ∗ ∃ r, prngReg c r) := by
  unfold Pipeline.ΦA
  rw [Pipeline.scopedRest_split_of_list spec2 c [cc2_scratch0, cc2_scratch1] (by decide) (by decide)]
  simp only [sc2_0, sc2_1, owns_whole, bigSepL_cons_cons, bigSepL_singleton]; try rfl

theorem PhiA2_open (c : Dev nD) : (Pipeline.ΦA spec2 c : sProp 𝕄)
    ⊢ iprop((∃ d, owns (c : Thread nD τ) sc2_0 fullShare d) ∗ (∃ d, owns (c : Thread nD τ) sc2_1 fullShare d) ∗ rest2 (F := F) c) := by
  rw [PhiA2_eq]; unfold rest2; iintro ⟨⟨⟨H0, H1⟩, Hr⟩, Hg⟩; iframe
theorem PhiA2_close (c : Dev nD) : iprop((∃ d, owns (c : Thread nD τ) sc2_0 fullShare d) ∗ (∃ d, owns (c : Thread nD τ) sc2_1 fullShare d) ∗ rest2 (F := F) c)
    ⊢ (Pipeline.ΦA spec2 c : sProp 𝕄) := by
  rw [PhiA2_eq]; unfold rest2; iintro ⟨H0, H1, Hr, Hg⟩; iframe

-- A buffer whose stores tile it reads as the stores' own array.
theorem owns_tiled (c : Dev nD) {s : Shape} {e : EltTy} {m : Memref sig .tc .vmem s e} {L : List (View.Piece (Elt F) s e)} {f : m.view.ty.Contents (Elt F)} :
    iprop(⌜View.Piece.tiledL L s.size = true⌝ ∗ (m.view.loc (c : Thread nD τ) ↦[m.view.set]{fullShare} m.view.writes (Elt F) f L) : sProp 𝕄)
      ⊢ owns (c : Thread nD τ) m fullShare (View.canon L) := by
  unfold owns; iintro ⟨%h, H⟩; iexists _; isplitr
  swap; · iexact H
  ipureintro; exact View.read_writes_eq_canon _ _ _ (View.cover_of_tiledL _ _ h)

section
variable (c : Dev nD) (i : grid2.Coords) (arg1 : Memref sig .tc .vmem S10000x16 .f32) (harg1 : arg1.IsWhole) (arg2 : Memref sig .tc .vmem S10000x16 .f32) (harg2 : arg2.IsWhole) (arg3 : Memref sig .tc .vmem S16x16 .f32) (harg3 : arg3.IsWhole) (arg4 : Memref sig .tc .vmem S16 .f32) (harg4 : arg4.IsWhole) (arg5 : Memref sig .tc .vmem S10000x1 .i32) (harg5 : arg5.IsWhole) (arg6 : Memref sig .tc .vmem S128x16 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x128 .f32) (harg9 : arg9.IsWhole)

section
variable (hc0 : first2 i) (hc1 : ¬last2 i) (x0 x1 : Vec F S10000x16 .f32) (x2 : Vec F S16x16 .f32) (x3 : Vec F S16 .f32) (x4 : Vec F S10000x1 .i32)
def s0_first : Vec F S128x16 .f32 := View.canon (run2_first c i arg1 harg1 arg2 harg2 arg3 harg3 arg4 harg4 arg5 harg5 arg6 harg6 arg7 harg7 arg8 harg8 arg9 harg9 hc0 hc1 x0 x1 x2 x3 x4).1
def s1_first : Vec F S1x128 .f32 := View.canon (run2_first c i arg1 harg1 arg2 harg2 arg3 harg3 arg4 harg4 arg5 harg5 arg6 harg6 arg7 harg7 arg8 harg8 arg9 harg9 hc0 hc1 x0 x1 x2 x3 x4).2.1
end

section
variable (hc0 : ¬first2 i) (hc1 : ¬last2 i) (x0 x1 : Vec F S10000x16 .f32) (x2 : Vec F S16x16 .f32) (x3 : Vec F S16 .f32) (x4 : Vec F S10000x1 .i32) (xs0 : Vec F S128x16 .f32) (xs1 : Vec F S1x128 .f32)
def s0_mid : Vec F S128x16 .f32 := View.canon (run2_mid c i arg1 harg1 arg2 harg2 arg3 harg3 arg4 harg4 arg5 harg5 arg6 harg6 arg7 harg7 arg8 harg8 arg9 harg9 hc0 hc1 x0 x1 x2 x3 x4 xs0 xs1).1
def s1_mid : Vec F S1x128 .f32 := View.canon (run2_mid c i arg1 harg1 arg2 harg2 arg3 harg3 arg4 harg4 arg5 harg5 arg6 harg6 arg7 harg7 arg8 harg8 arg9 harg9 hc0 hc1 x0 x1 x2 x3 x4 xs0 xs1).2.1
end

section
variable (hc0 : ¬first2 i) (hc1 : last2 i) (x0 x1 : Vec F S10000x16 .f32) (x2 : Vec F S16x16 .f32) (x3 : Vec F S16 .f32) (x4 : Vec F S10000x1 .i32) (xs0 : Vec F S128x16 .f32) (xs1 : Vec F S1x128 .f32)
def o5_last : Vec F S128x16 .f32 := View.canon (run2_last c i arg1 harg1 arg2 harg2 arg3 harg3 arg4 harg4 arg5 harg5 arg6 harg6 arg7 harg7 arg8 harg8 arg9 harg9 hc0 hc1 x0 x1 x2 x3 x4 xs0 xs1).1
def o6_last : Vec F S1x128 .f32 := View.canon (run2_last c i arg1 harg1 arg2 harg2 arg3 harg3 arg4 harg4 arg5 harg5 arg6 harg6 arg7 harg7 arg8 harg8 arg9 harg9 hc0 hc1 x0 x1 x2 x3 x4 xs0 xs1).2.1
def s0_last : Vec F S128x16 .f32 := View.canon (run2_last c i arg1 harg1 arg2 harg2 arg3 harg3 arg4 harg4 arg5 harg5 arg6 harg6 arg7 harg7 arg8 harg8 arg9 harg9 hc0 hc1 x0 x1 x2 x3 x4 xs0 xs1).2.2.1
def s1_last : Vec F S1x128 .f32 := View.canon (run2_last c i arg1 harg1 arg2 harg2 arg3 harg3 arg4 harg4 arg5 harg5 arg6 harg6 arg7 harg7 arg8 harg8 arg9 harg9 hc0 hc1 x0 x1 x2 x3 x4 xs0 xs1).2.2.2.1
end

end

def idle5 : Vec F S128x16 .f32 := View.canon []
def idle6 : Vec F S1x128 .f32 := View.canon []

theorem N2_eq : cfg2.N = 10 := N_2
theorem first_of (t : Fin cfg2.N) (h : t.val = 0) : first2 (grid2.coords t) := (first2_iff t).mpr h
theorem notFirst_of (t : Fin cfg2.N) (h : t.val ≠ 0) : ¬first2 (grid2.coords t) := mt (first2_iff t).mp h
theorem last_of (t : Fin cfg2.N) (h : t.val = 9) : last2 (grid2.coords t) := (last2_iff t).mpr h
theorem notLast_of (t : Fin cfg2.N) (h : t.val ≠ 9) : ¬last2 (grid2.coords t) := mt (last2_iff t).mp h

section
variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- A function of the body's coordinate, its nine buffers, its two conditions and the five blocks read, at point `t`'s own.
abbrev at2 {γ δ : grid2.Coords → Prop} {ρ : Sort _} (c : Dev nD) (t : Fin cfg2.N)
    (f : ∀ (i : grid2.Coords) (a1 : Memref sig .tc .vmem S10000x16 .f32) (_ : a1.IsWhole) (a2 : Memref sig .tc .vmem S10000x16 .f32) (_ : a2.IsWhole) (a3 : Memref sig .tc .vmem S16x16 .f32) (_ : a3.IsWhole) (a4 : Memref sig .tc .vmem S16 .f32) (_ : a4.IsWhole) (a5 : Memref sig .tc .vmem S10000x1 .i32) (_ : a5.IsWhole) (a6 : Memref sig .tc .vmem S128x16 .f32) (_ : a6.IsWhole) (a7 : Memref sig .tc .vmem S1x128 .f32) (_ : a7.IsWhole) (a8 : Memref sig .tc .vmem S128x16 .f32) (_ : a8.IsWhole) (a9 : Memref sig .tc .vmem S1x128 .f32) (_ : a9.IsWhole),
      γ i → δ i → Vec F S10000x16 .f32 → Vec F S10000x16 .f32 → Vec F S16x16 .f32 → Vec F S16 .f32 → Vec F S10000x1 .i32 → ρ)
    (h0 : γ (grid2.coords t)) (h1 : δ (grid2.coords t)) : ρ :=
  f (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) h0 h1 (blk2 V c 0 t) (blk2 V c 1 t) (blk2 V c 2 t) (blk2 V c 3 t) (blk2 V c 4 t)

def left2 (c : Dev nD) : (n : ℕ) → n < cfg2.N → Vec F S128x16 .f32 × Vec F S1x128 .f32 × Vec F S128x16 .f32 × Vec F S1x128 .f32
  | 0, hn => (idle5, idle6, at2 V c ⟨0, hn⟩ (s0_first c) (first_of _ rfl) (notLast_of _ (Nat.succ_ne_zero 8).symm), at2 V c ⟨0, hn⟩ (s1_first c) (first_of _ rfl) (notLast_of _ (Nat.succ_ne_zero 8).symm))
  | n + 1, hn =>
    if h : n + 1 = 9 then
      (at2 V c ⟨n + 1, hn⟩ (o5_last c) (notFirst_of _ (Nat.succ_ne_zero n)) (last_of _ h) (left2 c n (Nat.lt_of_succ_lt hn)).2.2.1 (left2 c n (Nat.lt_of_succ_lt hn)).2.2.2,
       at2 V c ⟨n + 1, hn⟩ (o6_last c) (notFirst_of _ (Nat.succ_ne_zero n)) (last_of _ h) (left2 c n (Nat.lt_of_succ_lt hn)).2.2.1 (left2 c n (Nat.lt_of_succ_lt hn)).2.2.2,
       at2 V c ⟨n + 1, hn⟩ (s0_last c) (notFirst_of _ (Nat.succ_ne_zero n)) (last_of _ h) (left2 c n (Nat.lt_of_succ_lt hn)).2.2.1 (left2 c n (Nat.lt_of_succ_lt hn)).2.2.2,
       at2 V c ⟨n + 1, hn⟩ (s1_last c) (notFirst_of _ (Nat.succ_ne_zero n)) (last_of _ h) (left2 c n (Nat.lt_of_succ_lt hn)).2.2.1 (left2 c n (Nat.lt_of_succ_lt hn)).2.2.2)
    else
      (idle5, idle6,
       at2 V c ⟨n + 1, hn⟩ (s0_mid c) (notFirst_of _ (Nat.succ_ne_zero n)) (notLast_of _ h) (left2 c n (Nat.lt_of_succ_lt hn)).2.2.1 (left2 c n (Nat.lt_of_succ_lt hn)).2.2.2,
       at2 V c ⟨n + 1, hn⟩ (s1_mid c) (notFirst_of _ (Nat.succ_ne_zero n)) (notLast_of _ h) (left2 c n (Nat.lt_of_succ_lt hn)).2.2.1 (left2 c n (Nat.lt_of_succ_lt hn)).2.2.2)

abbrev prev2 (c : Dev nD) (t : Fin cfg2.N) := left2 V c (t.val - 1) (Nat.lt_of_le_of_lt (Nat.sub_le _ _) t.isLt)

theorem left2_first (c : Dev nD) (t : Fin cfg2.N) (h : t.val = 0) :
    left2 V c t.val t.isLt = (idle5, idle6,
      s0_first c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (first_of t h) (notLast_of t (by omega)) (blk2 V c 0 t) (blk2 V c 1 t) (blk2 V c 2 t) (blk2 V c 3 t) (blk2 V c 4 t),
      s1_first c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (first_of t h) (notLast_of t (by omega)) (blk2 V c 0 t) (blk2 V c 1 t) (blk2 V c 2 t) (blk2 V c 3 t) (blk2 V c 4 t)) := by
  obtain ⟨n, hn⟩ := t
  cases n with
  | zero => rfl
  | succ n => exact absurd h (Nat.succ_ne_zero n)

theorem left2_mid (c : Dev nD) (t : Fin cfg2.N) (h0 : t.val ≠ 0) (h9 : t.val ≠ 9) :
    left2 V c t.val t.isLt = (idle5, idle6,
      s0_mid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t h0) (notLast_of t h9) (blk2 V c 0 t) (blk2 V c 1 t) (blk2 V c 2 t) (blk2 V c 3 t) (blk2 V c 4 t) (prev2 V c t).2.2.1 (prev2 V c t).2.2.2,
      s1_mid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t h0) (notLast_of t h9) (blk2 V c 0 t) (blk2 V c 1 t) (blk2 V c 2 t) (blk2 V c 3 t) (blk2 V c 4 t) (prev2 V c t).2.2.1 (prev2 V c t).2.2.2) := by
  obtain ⟨n, hn⟩ := t
  cases n with
  | zero => exact absurd rfl h0
  | succ n => exact (dif_neg (show ¬n + 1 = 9 from h9)).trans rfl

theorem left2_last (c : Dev nD) (t : Fin cfg2.N) (h9 : t.val = 9) :
    left2 V c t.val t.isLt = (
      o5_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t (by omega)) (last_of t h9) (blk2 V c 0 t) (blk2 V c 1 t) (blk2 V c 2 t) (blk2 V c 3 t) (blk2 V c 4 t) (prev2 V c t).2.2.1 (prev2 V c t).2.2.2,
      o6_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t (by omega)) (last_of t h9) (blk2 V c 0 t) (blk2 V c 1 t) (blk2 V c 2 t) (blk2 V c 3 t) (blk2 V c 4 t) (prev2 V c t).2.2.1 (prev2 V c t).2.2.2,
      s0_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t (by omega)) (last_of t h9) (blk2 V c 0 t) (blk2 V c 1 t) (blk2 V c 2 t) (blk2 V c 3 t) (blk2 V c 4 t) (prev2 V c t).2.2.1 (prev2 V c t).2.2.2,
      s1_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) sc2_0 (Memref.isWhole_whole _) sc2_1 (Memref.isWhole_whole _) (notFirst_of t (by omega)) (last_of t h9) (blk2 V c 0 t) (blk2 V c 1 t) (blk2 V c 2 t) (blk2 V c 3 t) (blk2 V c 4 t) (prev2 V c t).2.2.1 (prev2 V c t).2.2.2) := by
  obtain ⟨n, hn⟩ := t
  cases n with
  | zero => exact absurd h9 (Nat.succ_ne_zero 8).symm
  | succ n => exact (dif_pos (show n + 1 = 9 from h9)).trans rfl

def carried2 (c : Dev nD) : (n : ℕ) → n ≤ cfg2.N → sProp 𝕄
  | 0, _ => Pipeline.ΦA spec2 c
  | n + 1, hn => iprop(owns (c : Thread nD τ) sc2_0 fullShare (left2 V c n hn).2.2.1 ∗ owns (c : Thread nD τ) sc2_1 fullShare (left2 V c n hn).2.2.2 ∗ rest2 (F := F) c)

theorem carried2_zero (c : Dev nD) (n : ℕ) (h : n ≤ cfg2.N) (hz : n = 0) : carried2 V c n h = Pipeline.ΦA spec2 c := by
  subst hz; rfl
theorem carried2_succ (c : Dev nD) (n : ℕ) (hn : n < cfg2.N) :
    carried2 V c (n + 1) hn = iprop(owns (c : Thread nD τ) sc2_0 fullShare (left2 V c n hn).2.2.1 ∗ owns (c : Thread nD τ) sc2_1 fullShare (left2 V c n hn).2.2.2 ∗ rest2 (F := F) c) := rfl
theorem carried2_pos (c : Dev nD) (n : ℕ) (h : n ≤ cfg2.N) (hz : n ≠ 0) :
    carried2 V c n h = iprop(owns (c : Thread nD τ) sc2_0 fullShare (left2 V c (n - 1) (by omega)).2.2.1 ∗ owns (c : Thread nD τ) sc2_1 fullShare (left2 V c (n - 1) (by omega)).2.2.2 ∗ rest2 (F := F) c) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => (left2 V c t.val t.isLt).1
    | ⟨6, _⟩ => (left2 V c t.val t.isLt).2.1
  Φ t := carried2 V c t.val (Nat.le_of_lt_succ t.isLt)
  q _ := fullShare
  owed _ := 0

theorem dat2_A (c : Dev nD) (w : Fin cfg2.W) : (dat2 V c).A w = V c (Pipeline.arrRef spec2 w) := by dsimp only [dat2]
theorem dat2_Phi_castSucc (c : Dev nD) (t : Fin cfg2.N) : (dat2 V c).Φ t.castSucc = carried2 V c t.val (Nat.le_of_lt t.isLt) := by
  dsimp only [dat2]; simp only [Fin.coe_castSucc]
theorem dat2_after0 (c : Dev nD) (t : Fin cfg2.N) : (dat2 V c).after 0 t = blk2 V c 0 t := rfl
theorem dat2_after1 (c : Dev nD) (t : Fin cfg2.N) : (dat2 V c).after 1 t = blk2 V c 1 t := rfl
theorem dat2_after2 (c : Dev nD) (t : Fin cfg2.N) : (dat2 V c).after 2 t = blk2 V c 2 t := rfl
theorem dat2_after3 (c : Dev nD) (t : Fin cfg2.N) : (dat2 V c).after 3 t = blk2 V c 3 t := rfl
theorem dat2_after4 (c : Dev nD) (t : Fin cfg2.N) : (dat2 V c).after 4 t = blk2 V c 4 t := rfl
theorem dat2_after5 (c : Dev nD) (t : Fin cfg2.N) : (dat2 V c).after 5 t = (left2 V c t.val t.isLt).1 := by dsimp only [dat2]
theorem dat2_after6 (c : Dev nD) (t : Fin cfg2.N) : (dat2 V c).after 6 t = (left2 V c t.val t.isLt).2.1 := by dsimp only [dat2]
theorem dat2_before (c : Dev nD) (w : Fin cfg2.W) (hw : w.val < 5) (t : Fin cfg2.N) (d) : (dat2 V c).before w t d = (dat2 V c).after w t := by
  fin_cases w <;> first
    | exact absurd hw (by decide)
    | exact ((dat2 V c).before_in_eq_fetched _ rfl (fun _ => rfl) (fun _ _ _ => rfl) (fun t => rfl) t d).trans rfl

end

end Cert.KernelIdeal.Launches

end
-- ==== Proof.FrameR2c.lean ====
import proofs.«412654_j20461224198763_3_alg».proof.Proof.FrameR2b

set_option maxRecDepth 16384

noncomputable section

namespace Cert.KernelIdeal.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

theorem leaves2 (c : Dev nD) (w : Fin cfg2.W) (t : Fin cfg2.N) (h : w.val < 5 ∨ last2 (grid2.coords t)) :
    (dat2 V c).leavesExact w t = owns (c : Thread nD τ) ((cfg2.win w).stage (cfg2.slots t w)) fullShare ((dat2 V c).after w t) := by
  unfold Dat.leavesExact; rw [live2 w t h]

set_option maxHeartbeats 4800000 in
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before V c 0 (by decide), dat2_before V c 1 (by decide), dat2_before V c 2 (by decide), dat2_before V c 3 (by decide), dat2_before V c 4 (by decide)]
  rw [show (dat2 V c).owesAt () t.succ = (dat2 V c).owesAt () t.castSucc from rfl]
  rw [show (dat2 V c).Φ t.succ = carried2 V c (t.val + 1) t.isLt from rfl, carried2_succ]
  rw [leaves2 V c 0 t (.inl (by decide)), leaves2 V c 1 t (.inl (by decide)), leaves2 V c 2 t (.inl (by decide)), leaves2 V c 3 t (.inl (by decide)), leaves2 V c 4 t (.inl (by decide))]
  simp only [dat2_after0, dat2_after1, dat2_after2, dat2_after3, dat2_after4]
  by_cases h0 : t.val = 0
  · have hf := first_of t h0
    have hnl := notLast_of t (show t.val ≠ 9 by omega)
    rw [Dat.leavesExact_idle _ 5 t (idle2 5 t (by decide) hnl).1 (idle2 5 t (by decide) hnl).2, Dat.leavesExact_idle _ 6 t (idle2 6 t (by decide) hnl).1 (idle2 6 t (by decide) hnl).2]
    rw [left2_first V c t h0]
    unfold s0_first s1_first; (try dsimp only)
    rw [dat2_Phi_castSucc V c t, carried2_zero V c _ _ h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiA2_open (F := F) c) $$ HΦ
    icases HΦ' with ⟨HS0, HS1, Hr⟩
    iapply ((run2_first c _ _ _ _ _ _ _ _ _ _ _ _ _ _ _ _ _ _ _ hf hnl (blk2 V c 0 t) (blk2 V c 1 t) (blk2 V c 2 t) (blk2 V c 3 t) (blk2 V c 4 t)).2.2 _ _ Set.univ _)
    iframe H0 H1 H2 H3 H4 H5 H6 HS0 HS1
    iintro ⟨H0, H1, H2, H3, H4, H5, H6, ⟨%es0, HS0⟩, ⟨%es1, HS1⟩⟩
    isplitl [HS0 HS1 Hr]
    · isplitl [HS0]
      · iapply owns_tiled c; isplitr; · ipureintro; sl_kernel_rfl
        iexact HS0
      isplitl [HS1]
      · iapply owns_tiled c; isplitr; · ipureintro; sl_kernel_rfl
        iexact HS1
      iexact Hr
    iframe Ho H0 H1 H2 H3 H4
    isplitl [H5]; · iexists _; iexact H5
    iexists _; iexact H6
  · have hnf := notFirst_of t h0
    rw [dat2_Phi_castSucc V c t, carried2_pos V c _ _ h0]
    by_cases h9 : t.val = 9
    · have hl := last_of t h9
      rw [leaves2 V c 5 t (.inr hl), leaves2 V c 6 t (.inr hl), dat2_after5, dat2_after6, left2_last V c t h9]
      unfold o5_last o6_last s0_last s1_last; (try dsimp only)
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩⟩
      iapply ((run2_last c _ _ _ _ _ _ _ _ _ _ _ _ _ _ _ _ _ _ _ hnf hl (blk2 V c 0 t) (blk2 V c 1 t) (blk2 V c 2 t) (blk2 V c 3 t) (blk2 V c 4 t) (prev2 V c t).2.2.1 (prev2 V c t).2.2.2).2.2.2.2 Set.univ _)
      iframe H0 H1 H2 H3 H4 HS0 HS1
      isplitl [H5]; · iexists _; iexact H5
      isplitl [H6]; · iexists _; iexact H6
      iintro ⟨H0, H1, H2, H3, H4, ⟨%e5, H5⟩, ⟨%e6, H6⟩, ⟨%es0, HS0⟩, ⟨%es1, HS1⟩⟩
      isplitl [HS0 HS1 Hr]
      · isplitl [HS0]
        · iapply owns_tiled c; isplitr; · ipureintro; sl_kernel_rfl
          iexact HS0
        isplitl [HS1]
        · iapply owns_tiled c; isplitr; · ipureintro; sl_kernel_rfl
          iexact HS1
        iexact Hr
      iframe Ho H0 H1 H2 H3 H4
      isplitl [H5]
      · iapply owns_tiled c; isplitr; · ipureintro; sl_kernel_rfl
        iexact H5
      iapply owns_tiled c; isplitr; · ipureintro; sl_kernel_rfl
      iexact H6
    · have hnl := notLast_of t h9
      rw [Dat.leavesExact_idle _ 5 t (idle2 5 t (by decide) hnl).1 (idle2 5 t (by decide) hnl).2, Dat.leavesExact_idle _ 6 t (idle2 6 t (by decide) hnl).1 (idle2 6 t (by decide) hnl).2]
      rw [left2_mid V c t h0 h9]
      unfold s0_mid s1_mid; (try dsimp only)
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩⟩
      iapply ((run2_mid c _ _ _ _ _ _ _ _ _ _ _ _ _ _ _ _ _ _ _ hnf hnl (blk2 V c 0 t) (blk2 V c 1 t) (blk2 V c 2 t) (blk2 V c 3 t) (blk2 V c 4 t) (prev2 V c t).2.2.1 (prev2 V c t).2.2.2).2.2 _ _ Set.univ _)
      iframe H0 H1 H2 H3 H4 H5 H6 HS0 HS1
      iintro ⟨H0, H1, H2, H3, H4, H5, H6, ⟨%es0, HS0⟩, ⟨%es1, HS1⟩⟩
      isplitl [HS0 HS1 Hr]
      · isplitl [HS0]
        · iapply owns_tiled c; isplitr; · ipureintro; sl_kernel_rfl
          iexact HS0
        isplitl [HS1]
        · iapply owns_tiled c; isplitr; · ipureintro; sl_kernel_rfl
          iexact HS1
        iexact Hr
      iframe Ho H0 H1 H2 H3 H4
      isplitl [H5]; · iexists _; iexact H5
      iexists _; iexact H6

theorem obligation2 (c : Dev nD) : BodyObligation (dat2 (F := F) V c) (defs₀ (F := F)) Variants.none () Set.univ := fun t => by
  rw [bigSep_W2, bigSep_W2]
  exact body2_at V c t

theorem dat2_in (c : Dev nD) : (Pipeline.ΦA spec2 c : sProp 𝕄) ⊢ (dat2 V c).Φ 0 := by
  rw [show (dat2 V c).Φ 0 = carried2 V c 0 (Nat.zero_le _) from rfl, carried2_zero V c 0 _ rfl]
  try exact Idealize.SL.BI.Entails.refl _

-- After the last point the scratch buffers' contents are forgotten.
theorem dat2_out (c : Dev nD) : (dat2 V c).Φ (Fin.last cfg2.N) ⊢ (Pipeline.ΦA spec2 c : sProp 𝕄) := by
  rw [show (dat2 V c).Φ (Fin.last cfg2.N) = carried2 V c (Fin.last cfg2.N).val (Nat.le_of_lt_succ (Fin.last cfg2.N).isLt) from rfl,
    carried2_pos V c _ _ (by rw [Fin.val_last]; have := N2_eq; omega)]
  iintro ⟨HS0, HS1, Hr⟩
  iapply (PhiA2_close (F := F) c)
  isplitl [HS0]; · iexists _; iexact HS0
  isplitl [HS1]; · iexists _; iexact HS1
  iexact Hr

end

end Cert.KernelIdeal.Launches

end
-- ==== Proof.FrameRun.lean ====
import proofs.«412654_j20461224198763_3_alg».proof.Proof.FrameR0
import proofs.«412654_j20461224198763_3_alg».proof.Proof.FrameR1
import proofs.«412654_j20461224198763_3_alg».proof.Proof.FrameR2c
import proofs.«412654_j20461224198763_3_alg».proof.Proof.Gen.KernelIdeal.Regions

set_option maxRecDepth 16384

noncomputable section

namespace Cert.KernelIdeal.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's unscoped buffers at the boundaries of the seven segments: host lines and launches in turn. -/
abbrev B0 : Dev nD → Valuation τ sig (Elt F) := fun c b => m (c, b)
abbrev B1 : Dev nD → Valuation τ sig (Elt F) := fun c => StableHlo.after hostOps0 (B0 m c)
abbrev E1 : (c : Dev nD) → (b : Ref sig .tc) → Buf (Elt F) ((c : Thread nD τ).loc b) := fun c b => B1 m c b
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev B3 : Dev nD → Valuation τ sig (Elt F) := fun c => StableHlo.after hostOps1 (B2 m c)
abbrev E3 : (c : Dev nD) → (b : Ref sig .tc) → Buf (Elt F) ((c : Thread nD τ).loc b) := fun c b => B3 m c b
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev B5 : Dev nD → Valuation τ sig (Elt F) := fun c => StableHlo.after hostOps2 (B4 m c)
abbrev E5 : (c : Dev nD) → (b : Ref sig .tc) → Buf (Elt F) ((c : Thread nD τ).loc b) := fun c b => B5 m c b
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev B7 : Dev nD → Valuation τ sig (Elt F) := fun c => StableHlo.after hostOps3 (B6 m c)

/-- A launch changes its output arrays only: an input array ends as found, no other buffer is touched. -/
theorem B2_keep (c : Dev nD) (r : Ref sig .tc) (h : r ≠ main_v4) :
    B2 m c (Proc.devRef .tc r) = B1 m c (Proc.devRef .tc r) := by
  by_cases hw : ∃ w, Pipeline.arrRef spec0 w = r
  · obtain ⟨w, rfl⟩ := hw
    refine (B2_arr m c w).trans ?_
    fin_cases w <;> first | exact absurd rfl h | exact (dat0 (E1 m) c).arrAt_in _ rfl _
  · exact B2_of_ne m c r fun w e => hw ⟨w, e⟩
theorem B4_keep (c : Dev nD) (r : Ref sig .tc) (h : r ≠ main_v15) :
    B4 m c (Proc.devRef .tc r) = B3 m c (Proc.devRef .tc r) := by
  by_cases hw : ∃ w, Pipeline.arrRef spec1 w = r
  · obtain ⟨w, rfl⟩ := hw
    refine (B4_arr m c w).trans ?_
    fin_cases w <;> first | exact absurd rfl h | exact (dat1 (E3 m) c).arrAt_in _ rfl _
  · exact B4_of_ne m c r fun w e => hw ⟨w, e⟩
theorem B6_keep (c : Dev nD) (r : Ref sig .tc) (h : r ≠ main_v27_0) (h' : r ≠ main_v27_1) :
    B6 m c (Proc.devRef .tc r) = B5 m c (Proc.devRef .tc r) := by
  by_cases hw : ∃ w, Pipeline.arrRef spec2 w = r
  · obtain ⟨w, rfl⟩ := hw
    refine (B6_arr m c w).trans ?_
    fin_cases w <;> first | exact absurd rfl h | exact absurd rfl h' | exact (dat2 (E5 m) c).arrAt_in _ rfl _
  · exact B6_of_ne m c r fun w e => hw ⟨w, e⟩

/-- The buffers written before each boundary. -/
abbrev W2 : List (Ref sig .tc) := main_v4 :: hostOps0_W
abbrev W3 : List (Ref sig .tc) := hostOps1_W ++ W2
abbrev W4 : List (Ref sig .tc) := main_v15 :: W3
abbrev W5 : List (Ref sig .tc) := hostOps2_W ++ W4
abbrev W6 : List (Ref sig .tc) := main_v27_0 :: main_v27_1 :: W5
abbrev W7 : List (Ref sig .tc) := hostOps3_W ++ W6

/-- A buffer not written before a boundary holds its launch contents there. -/
theorem kept1 (c : Dev nD) (r : Ref sig .tc) (h : r ∉ hostOps0_W) : B1 m c (Proc.devRef .tc r) = m ((c : Thread nD τ).loc r) :=
  StableHlo.after_of_writes_sub hostOps0 _ hostOps0_writes h
theorem kept2 (c : Dev nD) (r : Ref sig .tc) (h : r ∉ W2) : B2 m c (Proc.devRef .tc r) = m ((c : Thread nD τ).loc r) :=
  (B2_keep m c r (List.ne_of_not_mem_cons h)).trans (kept1 m c r (List.not_mem_of_not_mem_cons h))
theorem kept3 (c : Dev nD) (r : Ref sig .tc) (h : r ∉ W3) : B3 m c (Proc.devRef .tc r) = m ((c : Thread nD τ).loc r) :=
  (StableHlo.after_of_writes_sub hostOps1 _ hostOps1_writes fun h' => h (List.mem_append_left _ h')).trans
    (kept2 m c r fun h' => h (List.mem_append_right _ h'))
theorem kept4 (c : Dev nD) (r : Ref sig .tc) (h : r ∉ W4) : B4 m c (Proc.devRef .tc r) = m ((c : Thread nD τ).loc r) :=
  (B4_keep m c r (List.ne_of_not_mem_cons h)).trans (kept3 m c r (List.not_mem_of_not_mem_cons h))
theorem kept5 (c : Dev nD) (r : Ref sig .tc) (h : r ∉ W5) : B5 m c (Proc.devRef .tc r) = m ((c : Thread nD τ).loc r) :=
  (StableHlo.after_of_writes_sub hostOps2 _ hostOps2_writes fun h' => h (List.mem_append_left _ h')).trans
    (kept4 m c r fun h' => h (List.mem_append_right _ h'))
theorem kept6 (c : Dev nD) (r : Ref sig .tc) (h : r ∉ W6) : B6 m c (Proc.devRef .tc r) = m ((c : Thread nD τ).loc r) :=
  (B6_keep m c r (List.ne_of_not_mem_cons h) (List.ne_of_not_mem_cons (List.not_mem_of_not_mem_cons h))).trans
    (kept5 m c r (List.not_mem_of_not_mem_cons (List.not_mem_of_not_mem_cons h)))
theorem kept7 (c : Dev nD) (r : Ref sig .tc) (h : r ∉ W7) : B7 m c (Proc.devRef .tc r) = m ((c : Thread nD τ).loc r) :=
  (StableHlo.after_of_writes_sub hostOps3 _ hostOps3_writes fun h' => h (List.mem_append_left _ h')).trans
    (kept6 m c r fun h' => h (List.mem_append_right _ h'))

def pdat : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱n : Variants := Variants.none
abbrev Ln : GSem nD τ sig → Finset Unit := fun _ => ∅
abbrev lvn : GSem nD τ sig → Unit → ℕ := fun _ _ => 0
abbrev Rst (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B7 m c) ∗ ∃ r, prngReg c r)

set_option backward.isDefEq.respectTransparency.types false in
/-- A launch as a segment between two boundaries: its arrays are split out of the unscoped buffers and put back, every other buffer rides along. -/
def regOf (p : Fin 3) (lw : Pipeline.LaunchFacts (nD := nD) (τ := τ) cfgs p) (Bin Bout : Dev nD → Valuation τ sig (Elt F))
    (hbody : ∀ c, Pipeline.BodyObligationLoose (pdat m p c) (defs₀ (F := F)) 𝒱n () Set.univ)
    (hq : ∀ c w, (pdat m p c).q w = fullShare) (howed : ∀ c t, (pdat m p c).owed t = 0)
    (hrec : ∀ c, (pdat m p c).recorded 0 = Set.univ)
    (hA : ∀ c w, (pdat m p c).A w = Bin c (Proc.devRef .tc (Pipeline.arrRef (Pipeline.pin (pcfgs (F := F)) adm p).spec w)))
    (harr : ∀ c w, (pdat m p c).arrAt w (Pipeline.pin (pcfgs (F := F)) adm p).N
      = Bout c (Proc.devRef .tc (Pipeline.arrRef (Pipeline.pin (pcfgs (F := F)) adm p).spec w)))
    (hrest : ∀ c b, (∀ w, Pipeline.arrRef (Pipeline.pin (pcfgs (F := F)) adm p).spec w ≠ b) → Bout c (Proc.devRef .tc b) = Bin c (Proc.devRef .tc b))
    (hin : ∀ c, (Pipeline.ΦA (Pipeline.pin (pcfgs (F := F)) adm p).spec c : sProp 𝕄) ⊢ (pdat m p c).Φ 0)
    (hout : ∀ c, (pdat m p c).Φ (Fin.last (Pipeline.pin (pcfgs (F := F)) adm p).N) ⊢ (Pipeline.ΦA (Pipeline.pin (pcfgs (F := F)) adm p).spec c : sProp 𝕄)) :
    Pipeline.RegionSeg (pcfgs (F := F)) adm (pdat m) () defs₀ 𝒱n Ln lvn p where
  win := lw.win.to₀
  block_pos := lw.block_pos
  stage_whole := lw.stage_whole
  K := PEmpty
  osem k := k.elim
  ho := Pipeline.OwnSemFacts.none _
  hbody := hbody
  hwaits := Pipeline.hwaits_of_owed_zero _ _ _ _ Ln lvn p howed
  pre c := iprop(StableHlo.held (c : Thread nD τ) (Pipeline.ucRefs τ sig) (Bin c) ∗ Rst c)
  post c := iprop(StableHlo.held (c : Thread nD τ) (Pipeline.ucRefs τ sig) (Bout c) ∗ Rst c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Bin c b)
  hentry c := by
    rw [Pipeline.ownSems0_none]
    have hsplit := Pipeline.arrays_of_unscopedBufs (p := p) (pcfgs (F := F)) adm (pdat m) lw.win lw.arr_whole c
      ((pdat m p c).share_full (hq c)) (fun b => Bin c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    rw [howed c 0]
    icases HO with ⟨%W, HO⟩; iexists W; isplitr; · ipureintro; exact fun _ _ => Or.inl (hrec c ▸ trivial)
    iexact HO
  hin c := by
    iintro ⟨Hp, -, Hr⟩
    iapply (hin c)
    unfold Pipeline.ΦA
    iframe
  hout c := by
    rw [Pipeline.ownSems0_none]
    iintro Hin
    ihave H2 := (hout c) $$ Hin
    unfold Pipeline.ΦA
    icases H2 with ⟨Hr, Hp⟩
    iframe; iempintro
  hexit c := by
    have hjoin := Pipeline.unscopedBufs_of_arrays (p := p) (pcfgs (F := F)) adm (Ix := Unit) (Name := ℕ) (U := UR sig nD τ) (Lvl := ℕ)
      lw.win lw.arr_whole c (pdat m) ((pdat m p c).share_full (hq c))
      (fun b => Bin c b) (fun b => Bout c b) ((pdat m p c).arrAt · (Pipeline.pin (pcfgs (F := F)) adm p).N) (harr c)
      fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) adm (pdat m) () defs₀ 𝒱n Ln lvn 0 :=
  regOf m 0 launch0 (B1 m) (B2 m) (fun c => (obligation0 (E1 m) c).loose) (fun _ _ => rfl) (fun _ _ => rfl) (fun _ => rfl) (fun _ _ => rfl)
    (fun c w => (B2_arr m c w).symm) (B2_of_ne m) (fun _ => .rfl) (fun _ => .rfl)
set_option backward.isDefEq.respectTransparency.types false in
def reg1 : Pipeline.RegionSeg (pcfgs (F := F)) adm (pdat m) () defs₀ 𝒱n Ln lvn 1 :=
  regOf m 1 launch1 (B3 m) (B4 m) (fun c => (obligation1 (E3 m) c).loose) (fun _ _ => rfl) (fun _ _ => rfl) (fun _ => rfl) (fun _ _ => rfl)
    (fun c w => (B4_arr m c w).symm) (B4_of_ne m) (fun _ => .rfl) (fun _ => .rfl)
set_option backward.isDefEq.respectTransparency.types false in
def reg2 : Pipeline.RegionSeg (pcfgs (F := F)) adm (pdat m) () defs₀ 𝒱n Ln lvn 2 :=
  regOf m 2 launch2 (B5 m) (B6 m) (fun c => (obligation2 (E5 m) c).loose) (fun _ _ => rfl) (fun _ _ => rfl) (fun _ => rfl) (fun _ _ => rfl)
    (fun c w => (B6_arr m c w).symm) (B6_of_ne m) (dat2_in (E5 m)) (dat2_out (E5 m))

theorem chain_end (c : Dev nD) : iprop(StableHlo.held (c : Thread nD τ) (Pipeline.ucRefs τ sig) (B7 m c) ∗ Rst (F := F) c)
    ⊢ iprop(Tend m c ∗ ∃ W, owes (c : Thread nD τ) (0 : CellTallies nD τ sig Unit) W) := by
  iintro ⟨Hh, Hp, Ho⟩
  unfold Tend
  iframe

abbrev items : List (Pipeline.Seg (pcfgs (F := F)) adm (pdat m) () defs₀ 𝒱n Ln lvn) :=
  [ .host (hostSeg hostOps0 hostOps0_sub hostOps0_fresh (B0 m)),
    .region (reg0 m),
    .host (hostSeg hostOps1 hostOps1_sub hostOps1_fresh (B2 m)),
    .region (reg1 m),
    .host (hostSeg hostOps2 hostOps2_sub hostOps2_fresh (B4 m)),
    .region (reg2 m),
    .host (hostSeg hostOps3 hostOps3_sub hostOps3_fresh (B6 m)) ]
theorem main_items (c : Dev nD) : main (F := F) c = Pipeline.Seg.run (items m) := (main_chain c).trans (by chain_rfl)

set_option backward.isDefEq.respectTransparency.types false in
/-- Every fair execution terminates, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) adm (pdat m) () cellOf_inj emb₁ defs₀ 𝒱n Ln lvn m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rst c)) (Tₙ := Tend m)
    (hch := ⟨fun _ => .rfl, fun _ => .rfl, fun _ => .rfl, fun _ => .rfl, fun _ => .rfl, fun _ => .rfl, fun _ => .rfl,
      fun c => chain_end m c⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

/-- An argument is unscoped and no segment writes it: a memory that holds the last boundary's contents holds it as launched. -/
theorem arg_end {r : Ref sig .tc} (hs : ¬ (Proc.devRef .tc r : DevRef τ sig).isScoped) (hr : r ∉ W7) {c : Dev nD} {s : (ℓ : Loc nD τ sig) → Buf (Elt F) ℓ}
    (h : ∀ b ∈ Pipeline.ucRefs τ sig, s (((c : Thread nD τ)).1, b) = B7 m c b) : s ((c.tc : Thread nD τ).loc r) = m ((c.tc : Thread nD τ).loc r) :=
  (h _ (mem_uc r hs)).trans (kept7 m c r hr)

theorem args_end {c : Dev nD} {s : (ℓ : Loc nD τ sig) → Buf (Elt F) ℓ} (h : ∀ b ∈ Pipeline.ucRefs τ sig, s (((c : Thread nD τ)).1, b) = B7 m c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8) :=
  ⟨arg_end m (by decide) (by decide) h, arg_end m (by decide) (by decide) h, arg_end m (by decide) (by decide) h,
    arg_end m (by decide) (by decide) h, arg_end m (by decide) (by decide) h, arg_end m (by decide) (by decide) h,
    arg_end m (by decide) (by decide) h, arg_end m (by decide) (by decide) h, arg_end m (by decide) (by decide) h⟩

end Cert.KernelIdeal.Launches

end
-- ==== Proof.Pieces.lean ====
import proofs.«412654_j20461224198763_3_alg».proof.Proof.FrameR0
import proofs.«412654_j20461224198763_3_alg».proof.Proof.FrameR1
import proofs.«412654_j20461224198763_3_alg».proof.Proof.FrameR2b
import Idealize.ShloMosaic.Lib.Pipeline.Value

set_option maxRecDepth 16384

noncomputable section

namespace Cert.KernelIdeal.Launches

open Idealize.ShloMosaic Idealize.ShloMosaic.TcCoe Idealize.ShloMosaic.Tactic
open Idealize.SL Idealize.SL.Sem
open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A whole-buffer store of a value computed from whole-buffer loads leaves that value of the buffers' contents. -/
theorem prod0_eq (x0 : Vec F S10000x128 .f32) (x1 : Vec F S128x16 .f32) : prod0 x0 x1 = k0_pay1 x0 x1 := by
  unfold prod0
  rw [View.canon_unit_zero hz2]
  simp only [View.ld_unit_zero (S := S10000x128) hz2, View.ld_unit_zero (S := S128x16) hz2]

theorem relu1_eq (x0 x1 : Vec F S10000x16 .f32) (x2 : Vec F S16 .f32) : relu1 x0 x1 x2 = k1_pay1 x0 x1 x2 := by
  unfold relu1
  rw [View.canon_unit_zero hz2]
  simp only [View.ld_unit_zero (S := S10000x16) hz2, View.ld_unit_zero (S := S16) hz1]

variable (c : Dev nD) (i : grid2.Coords) (arg1 : Memref sig .tc .vmem S10000x16 .f32) (harg1 : arg1.IsWhole)
  (arg2 : Memref sig .tc .vmem S10000x16 .f32) (harg2 : arg2.IsWhole) (arg3 : Memref sig .tc .vmem S16x16 .f32) (harg3 : arg3.IsWhole)
  (arg4 : Memref sig .tc .vmem S16 .f32) (harg4 : arg4.IsWhole) (arg5 : Memref sig .tc .vmem S10000x1 .i32) (harg5 : arg5.IsWhole)
  (arg6 : Memref sig .tc .vmem S128x16 .f32) (harg6 : arg6.IsWhole) (arg7 : Memref sig .tc .vmem S1x128 .f32) (harg7 : arg7.IsWhole)
  (arg8 : Memref sig .tc .vmem S128x16 .f32) (harg8 : arg8.IsWhole) (arg9 : Memref sig .tc .vmem S1x128 .f32) (harg9 : arg9.IsWhole)
  (x0 x1 : Vec F S10000x16 .f32) (x2 : Vec F S16x16 .f32) (x3 : Vec F S16 .f32) (x4 : Vec F S10000x1 .i32)
  (xs0 : Vec F S128x16 .f32) (xs1 : Vec F S1x128 .f32)

/-- What the third launch's body leaves in a scratch or output buffer is the running total updated by the block read. -/
theorem s0_first_eq (hc0 : first2 i) (hc1 : ¬last2 i) :
    s0_first c i arg1 harg1 arg2 harg2 arg3 harg3 arg4 harg4 arg5 harg5 arg6 harg6 arg7 harg7 arg8 harg8 arg9 harg9 hc0 hc1 x0 x1 x2 x3 x4 = k2_pay5 x0 x1 x2 x3 x4 (k2_pay2 (F := F)) := by
  unfold s0_first run2_first
  dsimp only
  sl_unfold_words
  rw [View.canon_cons_unit_zero (S := S128x16) hz2, View.readCov_unit_zero (S := S128x16) _ hz2]
  simp only [View.readAt_eq_ld, harg1.read_unread, harg2.read_unread, harg3.read_unread, harg4.read_unread, harg5.read_unread,
    View.ld_unit_zero (S := S10000x16) hz2, View.ld_unit_zero (S := S16x16) hz2, View.ld_unit_zero (S := S16) hz1,
    View.ld_unit_zero (S := S10000x1) hz2]
theorem s1_first_eq (hc0 : first2 i) (hc1 : ¬last2 i) :
    s1_first c i arg1 harg1 arg2 harg2 arg3 harg3 arg4 harg4 arg5 harg5 arg6 harg6 arg7 harg7 arg8 harg8 arg9 harg9 hc0 hc1 x0 x1 x2 x3 x4 = k2_pay1 (k2_pay3 (F := F)) (k2_pay6 x4) := by
  unfold s1_first run2_first
  dsimp only
  sl_unfold_words
  rw [View.canon_cons_unit_zero (S := S1x128) hz2, View.readCov_unit_zero (S := S1x128) _ hz2]
  simp only [View.readAt_eq_ld, harg5.read_unread, View.ld_unit_zero (S := S10000x1) hz2]
theorem s0_mid_eq (hc0 : ¬first2 i) (hc1 : ¬last2 i) :
    s0_mid c i arg1 harg1 arg2 harg2 arg3 harg3 arg4 harg4 arg5 harg5 arg6 harg6 arg7 harg7 arg8 harg8 arg9 harg9 hc0 hc1 x0 x1 x2 x3 x4 xs0 xs1 = k2_pay5 x0 x1 x2 x3 x4 xs0 := by
  unfold s0_mid run2_mid
  dsimp only
  sl_unfold_words
  rw [View.canon_unit_zero hz2]
  simp only [View.readAt_eq_ld, harg1.read_unread, harg2.read_unread, harg3.read_unread, harg4.read_unread, harg5.read_unread, harg8.read_unread,
    View.ld_unit_zero (S := S10000x16) hz2, View.ld_unit_zero (S := S16x16) hz2, View.ld_unit_zero (S := S16) hz1,
    View.ld_unit_zero (S := S10000x1) hz2, View.ld_unit_zero (S := S128x16) hz2]
theorem s1_mid_eq (hc0 : ¬first2 i) (hc1 : ¬last2 i) :
    s1_mid c i arg1 harg1 arg2 harg2 arg3 harg3 arg4 harg4 arg5 harg5 arg6 harg6 arg7 harg7 arg8 harg8 arg9 harg9 hc0 hc1 x0 x1 x2 x3 x4 xs0 xs1 = k2_pay1 xs1 (k2_pay6 x4) := by
  unfold s1_mid run2_mid
  dsimp only
  sl_unfold_words
  rw [View.canon_unit_zero hz2]
  simp only [View.readAt_eq_ld, harg5.read_unread, harg9.read_unread, View.ld_unit_zero (S := S10000x1) hz2, View.ld_unit_zero (S := S1x128) hz2]
theorem s0_last_eq (hc0 : ¬first2 i) (hc1 : last2 i) :
    s0_last c i arg1 harg1 arg2 harg2 arg3 harg3 arg4 harg4 arg5 harg5 arg6 harg6 arg7 harg7 arg8 harg8 arg9 harg9 hc0 hc1 x0 x1 x2 x3 x4 xs0 xs1 = k2_pay5 x0 x1 x2 x3 x4 xs0 := by
  unfold s0_last run2_last
  dsimp only
  sl_unfold_words
  rw [View.canon_unit_zero hz2]
  simp only [View.readAt_eq_ld, harg1.read_unread, harg2.read_unread, harg3.read_unread, harg4.read_unread, harg5.read_unread, harg8.read_unread,
    View.ld_unit_zero (S := S10000x16) hz2, View.ld_unit_zero (S := S16x16) hz2, View.ld_unit_zero (S := S16) hz1,
    View.ld_unit_zero (S := S10000x1) hz2, View.ld_unit_zero (S := S128x16) hz2]
theorem s1_last_eq (hc0 : ¬first2 i) (hc1 : last2 i) :
    s1_last c i arg1 harg1 arg2 harg2 arg3 harg3 arg4 harg4 arg5 harg5 arg6 harg6 arg7 harg7 arg8 harg8 arg9 harg9 hc0 hc1 x0 x1 x2 x3 x4 xs0 xs1 = k2_pay1 xs1 (k2_pay6 x4) := by
  unfold s1_last run2_last
  dsimp only
  sl_unfold_words
  rw [View.canon_unit_zero hz2]
  simp only [View.readAt_eq_ld, harg5.read_unread, harg9.read_unread, View.ld_unit_zero (S := S10000x1) hz2, View.ld_unit_zero (S := S1x128) hz2]
theorem o5_last_eq (hc0 : ¬first2 i) (hc1 : last2 i) :
    o5_last c i arg1 harg1 arg2 harg2 arg3 harg3 arg4 harg4 arg5 harg5 arg6 harg6 arg7 harg7 arg8 harg8 arg9 harg9 hc0 hc1 x0 x1 x2 x3 x4 xs0 xs1 = k2_pay5 x0 x1 x2 x3 x4 xs0 := by
  unfold o5_last run2_last
  dsimp only
  sl_unfold_words
  rw [View.canon_unit_zero hz2, View.readCov_unit_zero (S := S128x16) _ hz2]
  simp only [View.readAt_eq_ld, harg1.read_unread, harg2.read_unread, harg3.read_unread, harg4.read_unread, harg5.read_unread, harg8.read_unread,
    View.ld_unit_zero (S := S10000x16) hz2, View.ld_unit_zero (S := S16x16) hz2, View.ld_unit_zero (S := S16) hz1,
    View.ld_unit_zero (S := S10000x1) hz2, View.ld_unit_zero (S := S128x16) hz2]
theorem o6_last_eq (hc0 : ¬first2 i) (hc1 : last2 i) :
    o6_last c i arg1 harg1 arg2 harg2 arg3 harg3 arg4 harg4 arg5 harg5 arg6 harg6 arg7 harg7 arg8 harg8 arg9 harg9 hc0 hc1 x0 x1 x2 x3 x4 xs0 xs1 = k2_pay1 xs1 (k2_pay6 x4) := by
  unfold o6_last run2_last
  dsimp only
  sl_unfold_words
  rw [View.canon_unit_zero hz2, View.readCov_unit_zero (S := S1x128) _ hz2]
  simp only [View.readAt_eq_ld, harg5.read_unread, harg9.read_unread, View.ld_unit_zero (S := S10000x1) hz2, View.ld_unit_zero (S := S1x128) hz2]

end Cert.KernelIdeal.Launches

end
-- ==== Proof.KerSpec.lean ====
import proofs.«412654_j20461224198763_3_alg».proof.Proof.Gen.KernelIdeal.Skeleton
import Idealize.ShloMosaic.Lib.ValueIdx

noncomputable section

namespace Cert.KernelIdeal.KerSpec

open Idealize.ShloMosaic Idealize.ShloMosaic.ValueIdx Cert.KernelIdeal Cert.KernelIdeal.Gen

variable {F : FTy → Type} [FloatOps F]

def rowOf (b : Fin 10) (r : Fin 10000) : Fin 100000 := ⟨b.val * 10000 + r.val, by omega⟩
def blkOf (i : Fin 100000) : Fin 10 := ⟨i.val / 10000, by omega⟩
def inBlk (i : Fin 100000) : Fin 10000 := ⟨i.val % 10000, by omega⟩

theorem rowOf_blkOf_inBlk (i : Fin 100000) : rowOf (blkOf i) (inBlk i) = i := by
  apply Fin.ext; simp only [rowOf, blkOf, inBlk]; omega
theorem blkOf_rowOf (b : Fin 10) (r : Fin 10000) : blkOf (rowOf b r) = b := by
  apply Fin.ext; simp only [rowOf, blkOf]; omega
theorem inBlk_rowOf (b : Fin 10) (r : Fin 10000) : inBlk (rowOf b r) = r := by
  apply Fin.ext; simp only [rowOf, inBlk]; omega

def rows128 (A : Vec F S100000x128 .f32) (b : Fin 10) : Vec F S10000x128 .f32 :=
  fun y => A (ix2 (rowOf b ⟨(y 0).val, idx2_lt0 y⟩) (⟨(y 1).val, idx2_lt1 y⟩ : Fin 128))
def rows16 (A : Vec F S100000x16 .f32) (b : Fin 10) : Vec F S10000x16 .f32 :=
  fun y => A (ix2 (rowOf b ⟨(y 0).val, idx2_lt0 y⟩) (⟨(y 1).val, idx2_lt1 y⟩ : Fin 16))
def rows1 (A : Vec F S100000x1 .i32) (b : Fin 10) : Vec F S10000x1 .i32 :=
  fun y => A (ix2 (rowOf b ⟨(y 0).val, idx2_lt0 y⟩) (⟨(y 1).val, idx2_lt1 y⟩ : Fin 1))
/-- A 100000-row array from its ten blocks of 10000 rows. -/
def unblock16 (f : Fin 10 → FVec F S10000x16 .f32) : FVec F S100000x16 .f32 :=
  fun i => f (blkOf ⟨(i 0).val, idx2_lt0 i⟩) (ix2 (inBlk ⟨(i 0).val, idx2_lt0 i⟩) (⟨(i 1).val, idx2_lt1 i⟩ : Fin 16))

def xw (x : Vec F S100000x128 .f32) (W1 : Vec F S128x16 .f32) : FVec F S100000x16 .f32 :=
  unblock16 fun b => k0_pay1 (rows128 x b) W1

def h1 (a g : Vec F S100000x16 .f32) (b1 : Vec F S16 .f32) : FVec F S100000x16 .f32 :=
  unblock16 fun b => k1_pay1 (rows16 a b) (rows16 g b) b1

def blkN (n : ℕ) : Fin 10 := ⟨n % 10, Nat.mod_lt _ (by decide)⟩

/-- The pooled sums after block `n`: the membership matrix times the block's second-layer rows, added up block after block. -/
def sums (h g : Vec F S100000x16 .f32) (W2 : Vec F S16x16 .f32) (b2 : Vec F S16 .f32) (bt : Vec F S100000x1 .i32) :
    ℕ → FVec F S128x16 .f32
  | 0 => k2_pay5 (rows16 h (blkN 0)) (rows16 g (blkN 0)) W2 b2 (rows1 bt (blkN 0)) (k2_pay2 (F := F))
  | n + 1 => k2_pay5 (rows16 h (blkN (n + 1))) (rows16 g (blkN (n + 1))) W2 b2 (rows1 bt (blkN (n + 1))) (sums h g W2 b2 bt n)

def counts (bt : Vec F S100000x1 .i32) : ℕ → FVec F S1x128 .f32
  | 0 => k2_pay1 (k2_pay3 (F := F)) (k2_pay6 (rows1 bt (blkN 0)))
  | n + 1 => k2_pay1 (counts bt n) (k2_pay6 (rows1 bt (blkN (n + 1))))

def srcIdx (ei : IVec S2x640000 32) : IVec S640000x1 32 :=
  broadcastInDim S640000x1 ![0] bcast_S640000_S640000x1_0
    (select (cmpi .slt (shapeCast _ (extractStridedSlice S1x640000 ![0, 0] ei slices_S2x640000_S1x640000_0_0) shapeCasts_S1x640000_S640000)
        (broadcastInDim S640000 ![] bcast_S_S640000 (constantI S_ 32 0#32)))
      (addi (shapeCast _ (extractStridedSlice S1x640000 ![0, 0] ei slices_S2x640000_S1x640000_0_0) shapeCasts_S1x640000_S640000)
        (broadcastInDim S640000 ![] bcast_S_S640000 (constantI S_ 32 100000#32)))
      (shapeCast _ (extractStridedSlice S1x640000 ![0, 0] ei slices_S2x640000_S1x640000_0_0) shapeCasts_S1x640000_S640000))

def dstIdx (ei : IVec S2x640000 32) : IVec S640000x1 32 :=
  broadcastInDim S640000x1 ![0] bcast_S640000_S640000x1_0
    (shapeCast _ (extractStridedSlice S1x640000 ![1, 0] ei slices_S2x640000_S1x640000_1_0) shapeCasts_S1x640000_S640000)

/-- The neighbour sum: rows gathered at the edges' sources, scatter-added at their destinations. -/
def agg (a : FVec F S100000x16 .f32) (ei : IVec S2x640000 32) : FVec F S100000x16 .f32 :=
  Host.scatterAdd scatter_S100000x16_S640000x1_S640000x16_1_0_0_1
    (broadcastInDim S100000x16 ![] bcast_S_S100000x16 (constant S_ .f32 0x00000000#32))
    (dstIdx ei)
    (Host.gather gather_S100000x16_S640000x1_S640000x16_1_0_n_n_0_1_116 a (srcIdx ei))

def batchCol (bt : IVec S100000 32) : IVec S100000x1 32 := shapeCast _ bt shapeCasts_S100000_S100000x1

def tail (s : FVec F S128x16 .f32) (n : FVec F S1x128 .f32) (Wfc : FVec F S16x10 .f32) (bfc : FVec F S10 .f32) : FVec F S128x10 .f32 :=
  addf (Host.dotGeneral dot_S128x16_S16x10_S128x10_1_0_0_1_n_n none
      (Host.divf s (broadcastInDim S128x16 ![0, 1] bcast_S128x1_S128x16_0_1 (broadcastInDim S128x1 ![0] bcast_S128_S128x1_0
        (maximumf (shapeCast _ n shapeCasts_S1x128_S128) (broadcastInDim S128 ![] bcast_S_S128 (constant S_ .f32 0x3F800000#32))))))
      Wfc)
    (broadcastInDim S128x10 ![0, 1] bcast_S1x10_S128x10_0_1 (broadcastInDim S1x10 ![1] bcast_S10_S1x10_1 bfc))

def layer1 (x : Vec F S100000x128 .f32) (ei : IVec S2x640000 32) (W1 : Vec F S128x16 .f32) (b1 : Vec F S16 .f32) : FVec F S100000x16 .f32 :=
  h1 (xw x W1) (agg (xw x W1) ei) b1

/-- The kernel's result as one function of its nine arguments. -/
def out (x : Vec F S100000x128 .f32) (ei : IVec S2x640000 32) (bt : IVec S100000 32) (W1 : Vec F S128x16 .f32) (b1 : Vec F S16 .f32)
    (W2 : Vec F S16x16 .f32) (b2 : Vec F S16 .f32) (Wfc : FVec F S16x10 .f32) (bfc : FVec F S10 .f32) : FVec F S128x10 .f32 :=
  tail (sums (layer1 x ei W1 b1) (agg (layer1 x ei W1 b1) ei) W2 b2 (batchCol bt) 9) (counts (F := F) (batchCol bt) 9) Wfc bfc

end Cert.KernelIdeal.KerSpec

end
-- ==== Proof.ValueA.lean ====
import proofs.«412654_j20461224198763_3_alg».proof.Proof.Pieces
import proofs.«412654_j20461224198763_3_alg».proof.Proof.KerSpec
import Idealize.ShloMosaic.Lib.Pipeline.Value

set_option maxRecDepth 16384

noncomputable section

namespace Cert.KernelIdeal.Launches

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]

namespace ValueA

theorem pt0_lt (t : Fin cfg0.N) : t.val < 10 := lt_of_lt_of_eq t.isLt N_0

/-- The block indices of the first launch's windows, decided over its ten points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt F) ((c : Thread nD τ).loc b)) (c : Dev nD)

theorem blk0_x (t : Fin cfg0.N) :
    (blk0 V c 0 t : Vec F S10000x128 .f32) = KerSpec.rows128 (V c main_arg0) ⟨t.val, pt0_lt t⟩ := by
  obtain ⟨e0, e1, -, -, -, -⟩ := idx_facts0 t
  funext y
  unfold blk0
  rw [View.read_apply]
  show V c main_arg0 _ = V c main_arg0 _
  congr 1
  funext a
  apply Fin.ext
  match a with
  | ⟨0, _⟩ => show win0_0.index t (0 : Fin 2) * 10000 + 1 * (y 0).val = t.val * 10000 + (y 0).val; rw [e0]; omega
  | ⟨1, _⟩ => show win0_0.index t (1 : Fin 2) * 128 + 1 * (y 1).val = (y 1).val; rw [e1]; omega

theorem blk0_w (t : Fin cfg0.N) : (blk0 V c 1 t : Vec F S128x16 .f32) = V c main_arg3 := by
  obtain ⟨-, -, e2, e3, -, -⟩ := idx_facts0 t
  funext y
  unfold blk0
  rw [View.read_apply]
  show V c main_arg3 _ = V c main_arg3 y
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 16 + 1 * (y 1).val = (y 1).val; rw [e3]; omega

end

/-- A row-blocked array at row `b * 10000 + r` is block `b` at row `r`. -/
theorem unblock16_at (f : Fin 10 → FVec F S10000x16 .f32) (b : Fin 10) (y : S10000x16.Idx) (i : S100000x16.Idx)
    (h0 : (i 0).val = b.val * 10000 + (y 0).val) (h1 : (i 1).val = (y 1).val) : KerSpec.unblock16 f i = f b y := by
  have hy : (y 0).val < 10000 := idx2_lt0 y
  have e1 : KerSpec.blkOf ⟨(i 0).val, idx2_lt0 i⟩ = b := Fin.ext (by show (i 0).val / 10000 = b.val; omega)
  have e2 : ix2 (KerSpec.inBlk ⟨(i 0).val, idx2_lt0 i⟩) (⟨(i 1).val, idx2_lt1 i⟩ : Fin 16) = y := funext fun a => Fin.ext (by
    match a with
    | ⟨0, _⟩ => show (i 0).val % 10000 = (y 0).val; omega
    | ⟨1, _⟩ => exact h1)
  show f (KerSpec.blkOf ⟨(i 0).val, idx2_lt0 i⟩) (ix2 (KerSpec.inBlk ⟨(i 0).val, idx2_lt0 i⟩) (⟨(i 1).val, idx2_lt1 i⟩ : Fin 16)) = _
  rw [e1, e2]

/-- Row `i` of a row-blocked array lies in the block numbered `i / 10000`, whose columns are all sixteen. -/
theorem rows_cover (ix : Fin 2 → ℕ) (i : S100000x16.Idx) (e0 : ix 0 = (i 0).val / 10000) (e1 : ix 1 = 0) (a : Fin 2) :
    ix a * S10000x16.size a ≤ (i a).val ∧ (i a).val < ix a * S10000x16.size a + S10000x16.size a := by
  have hi1 : (i 1).val < 16 := idx2_lt1 i
  match a with
  | ⟨0, _⟩ => show ix 0 * 10000 ≤ (i 0).val ∧ (i 0).val < ix 0 * 10000 + 10000; rw [e0]; omega
  | ⟨1, _⟩ => show ix 1 * 16 ≤ (i 1).val ∧ (i 1).val < ix 1 * 16 + 16; rw [e1]; omega

theorem mem_blk0 (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v4).slice (win0_2.rect t)).set ↔ _
  rw [View.set_slice_whole, Rect.mem_set_unit]
  exact Iff.rfl

theorem pt1_lt (t : Fin cfg1.N) : t.val < 10 := lt_of_lt_of_eq t.isLt N_1

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

section
variable (V : (c : Dev nD) → (b : Ref sig .tc) → Buf (Elt F) ((c : Thread nD τ).loc b)) (c : Dev nD)

theorem blk1_a (t : Fin cfg1.N) :
    (blk1 V c 0 t : Vec F S10000x16 .f32) = KerSpec.rows16 (V c main_v4) ⟨t.val, pt1_lt t⟩ := by
  obtain ⟨e0, e1, -, -, -, -, -⟩ := idx_facts1 t
  funext y
  unfold blk1
  rw [View.read_apply]
  show V c main_v4 _ = V c main_v4 _
  congr 1
  funext a
  apply Fin.ext
  match a with
  | ⟨0, _⟩ => show win1_0.index t (0 : Fin 2) * 10000 + 1 * (y 0).val = t.val * 10000 + (y 0).val; rw [e0]; omega
  | ⟨1, _⟩ => show win1_0.index t (1 : Fin 2) * 16 + 1 * (y 1).val = (y 1).val; rw [e1]; omega

theorem blk1_g (t : Fin cfg1.N) :
    (blk1 V c 1 t : Vec F S10000x16 .f32) = KerSpec.rows16 (V c main_v14) ⟨t.val, pt1_lt t⟩ := by
  obtain ⟨-, -, e2, e3, -, -, -⟩ := idx_facts1 t
  funext y
  unfold blk1
  rw [View.read_apply]
  show V c main_v14 _ = V c main_v14 _
  congr 1
  funext a
  apply Fin.ext
  match a with
  | ⟨0, _⟩ => show win1_1.index t (0 : Fin 2) * 10000 + 1 * (y 0).val = t.val * 10000 + (y 0).val; rw [e2]; omega
  | ⟨1, _⟩ => show win1_1.index t (1 : Fin 2) * 16 + 1 * (y 1).val = (y 1).val; rw [e3]; omega

theorem blk1_b (t : Fin cfg1.N) : (blk1 V c 2 t : Vec F S16 .f32) = V c main_arg4 := by
  obtain ⟨-, -, -, -, e4, -, -⟩ := idx_facts1 t
  funext y
  unfold blk1
  rw [View.read_apply]
  show V c main_arg4 _ = V c main_arg4 y
  congr 1
  funext a
  apply Fin.ext
  match a with
  | ⟨0, _⟩ => show win1_2.index t (0 : Fin 1) * 16 + 1 * (y 0).val = (y 0).val; rw [e4]; omega

end

theorem mem_blk1 (t : Fin cfg1.N) (i : S100000x16.Idx) :
    i ∈ ((cfg1.win 3).blk t).view.set ↔ ∀ a : Fin 2, win1_3.index t a * S10000x16.size a ≤ (i a).val
      ∧ (i a).val < win1_3.index t a * S10000x16.size a + S10000x16.size a := by
  show i ∈ ((View.whole main_v15).slice (win1_3.rect t)).set ↔ _
  rw [View.set_slice_whole, Rect.mem_set_unit]
  exact Iff.rfl

end ValueA

open ValueA

/-- After launch one the 100000×16 output holds every row block of `x` times `W1`. -/
theorem xw_array (V : (c : Dev nD) → (b : Ref sig .tc) → Buf (Elt F) ((c : Thread nD τ).loc b)) (c : Dev nD)
    (x : Vec F S100000x128 .f32) (W1 : Vec F S128x16 .f32) (hx : V c main_arg0 = x) (hW : V c main_arg3 = W1) :
    (dat0 V c).arrAt 2 cfg0.N = KerSpec.xw x W1 := by
  refine (dat0 V c).arrAt_eq_of_cover 2 (KerSpec.xw x W1) (fun t _ => ?_) (fun i => ?_)
  · obtain ⟨-, -, -, -, e4, e5⟩ := idx_facts0 t
    show (cfg0.win 2).cut (grid0.coords t) ((dat0 V c).after 2 t) = _
    rw [dat0_after2, prod0_eq, blk0_x, blk0_w, hx, hW]
    funext y
    show k0_pay1 (KerSpec.rows128 x ⟨t.val, pt0_lt t⟩) W1 y = KerSpec.xw x W1 (((cfg0.win 2).blk t).view.emb y)
    refine (unblock16_at (fun b => k0_pay1 (KerSpec.rows128 x b) W1) ⟨t.val, pt0_lt t⟩ y _ ?_ ?_).symm
    · show win0_2.index t (0 : Fin 2) * 10000 + 1 * (y 0).val = t.val * 10000 + (y 0).val; rw [e4]; omega
    · show win0_2.index t (1 : Fin 2) * 16 + 1 * (y 1).val = (y 1).val; rw [e5]; omega
  · have hi0 : (i 0).val < 100000 := idx2_lt0 i
    have ht : (i 0).val / 10000 < cfg0.N := by rw [show cfg0.N = 10 from N_0]; omega
    obtain ⟨-, -, -, -, e4, e5⟩ := idx_facts0 ⟨(i 0).val / 10000, ht⟩
    refine ⟨⟨(i 0).val / 10000, ht⟩, flush0_2 _, ?_⟩
    rw [mem_blk0]
    exact rows_cover _ i e4 e5

/-- After launch two the 100000×16 output holds, block by block, `max (a + g + b1) 0`. -/
theorem h1_array (V : (c : Dev nD) → (b : Ref sig .tc) → Buf (Elt F) ((c : Thread nD τ).loc b)) (c : Dev nD)
    (a g : Vec F S100000x16 .f32) (b1 : Vec F S16 .f32) (ha : V c main_v4 = a) (hg : V c main_v14 = g) (hb : V c main_arg4 = b1) :
    (dat1 V c).arrAt 3 cfg1.N = KerSpec.h1 a g b1 := by
  refine (dat1 V c).arrAt_eq_of_cover 3 (KerSpec.h1 a g b1) (fun t _ => ?_) (fun i => ?_)
  · obtain ⟨-, -, -, -, -, e5, e6⟩ := idx_facts1 t
    show (cfg1.win 3).cut (grid1.coords t) ((dat1 V c).after 3 t) = _
    rw [dat1_after3, relu1_eq, blk1_a, blk1_g, blk1_b, ha, hg, hb]
    funext y
    show k1_pay1 (KerSpec.rows16 a ⟨t.val, pt1_lt t⟩) (KerSpec.rows16 g ⟨t.val, pt1_lt t⟩) b1 y
      = KerSpec.h1 a g b1 (((cfg1.win 3).blk t).view.emb y)
    refine (unblock16_at (fun b => k1_pay1 (KerSpec.rows16 a b) (KerSpec.rows16 g b) b1) ⟨t.val, pt1_lt t⟩ y _ ?_ ?_).symm
    · show win1_3.index t (0 : Fin 2) * 10000 + 1 * (y 0).val = t.val * 10000 + (y 0).val; rw [e5]; omega
    · show win1_3.index t (1 : Fin 2) * 16 + 1 * (y 1).val = (y 1).val; rw [e6]; omega
  · have hi0 : (i 0).val < 100000 := idx2_lt0 i
    have ht : (i 0).val / 10000 < cfg1.N := by rw [show cfg1.N = 10 from N_1]; omega
    obtain ⟨-, -, -, -, -, e5, e6⟩ := idx_facts1 ⟨(i 0).val / 10000, ht⟩
    refine ⟨⟨(i 0).val / 10000, ht⟩, flush1_3 _, ?_⟩
    rw [mem_blk1]
    exact rows_cover _ i e5 e6

end Cert.KernelIdeal.Launches

end
-- ==== Proof.ValueC.lean ====
import proofs.«412654_j20461224198763_3_alg».proof.Proof.Pieces
import proofs.«412654_j20461224198763_3_alg».proof.Proof.FrameR2c
import proofs.«412654_j20461224198763_3_alg».proof.Proof.KerSpec
import Idealize.ShloMosaic.Lib.Pipeline.Value

set_option maxRecDepth 16384

noncomputable section

namespace Cert.KernelIdeal.Launches

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]

section
variable (V : (c : Dev nD) → (b : Ref sig .tc) → Buf (Elt F) ((c : Thread nD τ).loc b)) (c : Dev nD)

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem blk2_0_eq (h : Vec F S100000x16 .f32) (hh : V c main_v15 = h) (t : Fin cfg2.N) :
    blk2 V c 0 t = KerSpec.rows16 h (KerSpec.blkN t.val) := by
  obtain ⟨e0, e1, -⟩ := idx_facts2 t
  have ht : t.val < 10 := lt_of_lt_of_eq t.isLt N2_eq
  funext y
  show V c main_v15 (((cfg2.win 0).blk t).view.emb y) = KerSpec.rows16 h (KerSpec.blkN t.val) y
  rw [hh]
  unfold KerSpec.rows16
  refine congrArg h (funext fun a => Fin.ext ?_)
  match a with
  | ⟨0, _⟩ => show win2_0.index t (0 : Fin 2) * 10000 + 1 * (y 0).val = t.val % 10 * 10000 + (y 0).val; omega
  | ⟨1, _⟩ => show win2_0.index t (1 : Fin 2) * 16 + 1 * (y 1).val = (y 1).val; omega

theorem blk2_1_eq (g : Vec F S100000x16 .f32) (hg : V c main_v25 = g) (t : Fin cfg2.N) :
    blk2 V c 1 t = KerSpec.rows16 g (KerSpec.blkN t.val) := by
  obtain ⟨-, -, e0, e1, -⟩ := idx_facts2 t
  have ht : t.val < 10 := lt_of_lt_of_eq t.isLt N2_eq
  funext y
  show V c main_v25 (((cfg2.win 1).blk t).view.emb y) = KerSpec.rows16 g (KerSpec.blkN t.val) y
  rw [hg]
  unfold KerSpec.rows16
  refine congrArg g (funext fun a => Fin.ext ?_)
  match a with
  | ⟨0, _⟩ => show win2_1.index t (0 : Fin 2) * 10000 + 1 * (y 0).val = t.val % 10 * 10000 + (y 0).val; omega
  | ⟨1, _⟩ => show win2_1.index t (1 : Fin 2) * 16 + 1 * (y 1).val = (y 1).val; omega

theorem blk2_2_eq (W2 : Vec F S16x16 .f32) (hW : V c main_arg5 = W2) (t : Fin cfg2.N) : blk2 V c 2 t = W2 := by
  obtain ⟨-, -, -, -, e0, e1, -⟩ := idx_facts2 t
  funext y
  show V c main_arg5 (((cfg2.win 2).blk t).view.emb y) = W2 y
  rw [hW]
  refine congrArg W2 (funext fun a => Fin.ext ?_)
  match a with
  | ⟨0, _⟩ => show win2_2.index t (0 : Fin 2) * 16 + 1 * (y 0).val = (y 0).val; omega
  | ⟨1, _⟩ => show win2_2.index t (1 : Fin 2) * 16 + 1 * (y 1).val = (y 1).val; omega

theorem blk2_3_eq (b2 : Vec F S16 .f32) (hb : V c main_arg6 = b2) (t : Fin cfg2.N) : blk2 V c 3 t = b2 := by
  obtain ⟨-, -, -, -, -, -, e0, -⟩ := idx_facts2 t
  funext y
  show V c main_arg6 (((cfg2.win 3).blk t).view.emb y) = b2 y
  rw [hb]
  refine congrArg b2 (funext fun a => Fin.ext ?_)
  match a with
  | ⟨0, _⟩ => show win2_3.index t (0 : Fin 1) * 16 + 1 * (y 0).val = (y 0).val; omega

theorem blk2_4_eq (bt : Vec F S100000x1 .i32) (hbt : V c main_v26 = bt) (t : Fin cfg2.N) :
    blk2 V c 4 t = KerSpec.rows1 (F := F) bt (KerSpec.blkN t.val) := by
  obtain ⟨-, -, -, -, -, -, -, e0, e1, -⟩ := idx_facts2 t
  have ht : t.val < 10 := lt_of_lt_of_eq t.isLt N2_eq
  funext y
  show V c main_v26 (((cfg2.win 4).blk t).view.emb y) = KerSpec.rows1 (F := F) bt (KerSpec.blkN t.val) y
  rw [hbt]
  unfold KerSpec.rows1
  refine congrArg bt (funext fun a => Fin.ext ?_)
  match a with
  | ⟨0, _⟩ => show win2_4.index t (0 : Fin 2) * 10000 + 1 * (y 0).val = t.val % 10 * 10000 + (y 0).val; omega
  | ⟨1, _⟩ => show win2_4.index t (1 : Fin 2) * 1 + 1 * (y 1).val = (y 1).val; omega

end

section
variable (V : (c : Dev nD) → (b : Ref sig .tc) → Buf (Elt F) ((c : Thread nD τ).loc b)) (c : Dev nD)
  (h g : Vec F S100000x16 .f32) (W2 : Vec F S16x16 .f32) (b2 : Vec F S16 .f32) (bt : Vec F S100000x1 .i32)
  (hh : V c main_v15 = h) (hg : V c main_v25 = g) (hW : V c main_arg5 = W2) (hb : V c main_arg6 = b2) (hbt : V c main_v26 = bt)
include hh hg hW hb hbt

/-- After point `n` the scratch buffers hold the running totals after block `n`: from zero at the first point, from the point before at the others. -/
theorem left2_scratch (n : ℕ) (hn : n < cfg2.N) :
    (left2 V c n hn).2.2.1 = KerSpec.sums h g W2 b2 bt n ∧ (left2 V c n hn).2.2.2 = KerSpec.counts (F := F) bt n := by
  induction n with
  | zero =>
    rw [left2_first V c ⟨0, hn⟩ rfl]
    dsimp only
    rw [s0_first_eq, s1_first_eq, blk2_0_eq V c h hh, blk2_1_eq V c g hg, blk2_2_eq V c W2 hW, blk2_3_eq V c b2 hb, blk2_4_eq V c bt hbt]
    exact ⟨rfl, rfl⟩
  | succ n ih =>
    obtain ⟨ih0, ih1⟩ := ih (Nat.lt_of_succ_lt hn)
    have hp : prev2 V c ⟨n + 1, hn⟩ = left2 V c n (Nat.lt_of_succ_lt hn) := rfl
    by_cases h9 : n + 1 = 9
    · rw [left2_last V c ⟨n + 1, hn⟩ h9]
      dsimp only
      rw [s0_last_eq, s1_last_eq, blk2_0_eq V c h hh, blk2_1_eq V c g hg, blk2_2_eq V c W2 hW, blk2_3_eq V c b2 hb, blk2_4_eq V c bt hbt,
        hp, ih0, ih1]
      exact ⟨rfl, rfl⟩
    · rw [left2_mid V c ⟨n + 1, hn⟩ (Nat.succ_ne_zero n) h9]
      dsimp only
      rw [s0_mid_eq, s1_mid_eq, blk2_0_eq V c h hh, blk2_1_eq V c g hg, blk2_2_eq V c W2 hW, blk2_3_eq V c b2 hb, blk2_4_eq V c bt hbt,
        hp, ih0, ih1]
      exact ⟨rfl, rfl⟩

/-- At the last point the two outputs receive the same totals. -/
theorem left2_outputs (n : ℕ) (hn : n < cfg2.N) (h9 : n = 9) :
    (left2 V c n hn).1 = KerSpec.sums h g W2 b2 bt 9 ∧ (left2 V c n hn).2.1 = KerSpec.counts (F := F) bt 9 := by
  subst h9
  obtain ⟨ih0, ih1⟩ := left2_scratch V c h g W2 b2 bt hh hg hW hb hbt 8 (Nat.lt_of_succ_lt hn)
  have hp : prev2 V c ⟨9, hn⟩ = left2 V c 8 (Nat.lt_of_succ_lt hn) := rfl
  rw [left2_last V c ⟨9, hn⟩ rfl]
  dsimp only
  rw [o5_last_eq, o6_last_eq, blk2_0_eq V c h hh, blk2_1_eq V c g hg, blk2_2_eq V c W2 hW, blk2_3_eq V c b2 hb, blk2_4_eq V c bt hbt,
    hp, ih0, ih1]
  exact ⟨rfl, rfl⟩

theorem flushed2_5_eq (t : Fin cfg2.N) (hf : (cfg2.win 5).flush t = true) :
    (dat2 V c).flushed 5 t = ((cfg2.win 5).blk t).view.read (Elt F) (KerSpec.sums h g W2 b2 bt 9) := by
  have ht : t.val < 10 := lt_of_lt_of_eq t.isLt N2_eq
  have h9 : t.val = 9 := by have := (flush2_5 t).mp hf; omega
  obtain ⟨-, -, -, -, -, -, -, -, -, e0, e1, -⟩ := idx_facts2 t
  show (cfg2.win 5).cut (grid2.coords t) ((dat2 V c).after 5 t) = _
  rw [dat2_after5, (left2_outputs V c h g W2 b2 bt hh hg hW hb hbt t.val t.isLt h9).1]
  funext j
  show KerSpec.sums h g W2 b2 bt 9 j = KerSpec.sums h g W2 b2 bt 9 (((cfg2.win 5).blk t).view.emb j)
  refine congrArg (KerSpec.sums h g W2 b2 bt 9) (funext fun a => Fin.ext ?_)
  match a with
  | ⟨0, _⟩ => show (j 0).val = win2_5.index t (0 : Fin 2) * 128 + 1 * (j 0).val; omega
  | ⟨1, _⟩ => show (j 1).val = win2_5.index t (1 : Fin 2) * 16 + 1 * (j 1).val; omega

theorem flushed2_6_eq (t : Fin cfg2.N) (hf : (cfg2.win 6).flush t = true) :
    (dat2 V c).flushed 6 t = ((cfg2.win 6).blk t).view.read (Elt F) (KerSpec.counts (F := F) bt 9) := by
  have ht : t.val < 10 := lt_of_lt_of_eq t.isLt N2_eq
  have h9 : t.val = 9 := by have := (flush2_6 t).mp hf; omega
  obtain ⟨-, -, -, -, -, -, -, -, -, -, -, e0, e1⟩ := idx_facts2 t
  show (cfg2.win 6).cut (grid2.coords t) ((dat2 V c).after 6 t) = _
  rw [dat2_after6, (left2_outputs V c h g W2 b2 bt hh hg hW hb hbt t.val t.isLt h9).2]
  funext j
  show KerSpec.counts (F := F) bt 9 j = KerSpec.counts (F := F) bt 9 (((cfg2.win 6).blk t).view.emb j)
  refine congrArg (KerSpec.counts (F := F) bt 9) (funext fun a => Fin.ext ?_)
  match a with
  | ⟨0, _⟩ => show (j 0).val = win2_6.index t (0 : Fin 2) * 1 + 1 * (j 0).val; omega
  | ⟨1, _⟩ => show (j 1).val = win2_6.index t (1 : Fin 2) * 128 + 1 * (j 1).val; omega

end

theorem mem_blk2_5 (t : Fin cfg2.N) (i : S128x16.Idx) :
    i ∈ ((cfg2.win 5).blk t).view.set ↔ ∀ a : Fin 2, win2_5.index t a * S128x16.size a ≤ (i a).val ∧ (i a).val < win2_5.index t a * S128x16.size a + S128x16.size a := by
  show i ∈ ((View.whole main_v27_0).slice (win2_5.rect t)).set ↔ _
  rw [View.set_slice_whole, Rect.mem_set_unit]
  exact Iff.rfl

theorem mem_blk2_6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v27_1).slice (win2_6.rect t)).set ↔ _
  rw [View.set_slice_whole, Rect.mem_set_unit]
  exact Iff.rfl

/-- After launch three the two outputs hold the totals after the tenth block. -/
theorem pooled_arrays (V : (c : Dev nD) → (b : Ref sig .tc) → Buf (Elt F) ((c : Thread nD τ).loc b)) (c : Dev nD)
    (h g : Vec F S100000x16 .f32) (W2 : Vec F S16x16 .f32) (b2 : Vec F S16 .f32) (bt : Vec F S100000x1 .i32)
    (hh : V c main_v15 = h) (hg : V c main_v25 = g) (hW : V c main_arg5 = W2) (hb : V c main_arg6 = b2) (hbt : V c main_v26 = bt) :
    (dat2 V c).arrAt 5 cfg2.N = KerSpec.sums h g W2 b2 bt 9 ∧ (dat2 V c).arrAt 6 cfg2.N = KerSpec.counts (F := F) bt 9 := by
  have h9 : 9 < cfg2.N := by rw [N2_eq]; omega
  obtain ⟨-, -, -, -, -, -, -, -, -, e50, e51, e60, e61⟩ := idx_facts2 (⟨9, h9⟩ : Fin cfg2.N)
  constructor
  · refine (dat2 V c).arrAt_eq_of_cover 5 (KerSpec.sums h g W2 b2 bt 9)
      (fun t hf => flushed2_5_eq V c h g W2 b2 bt hh hg hW hb hbt t hf) (fun i => ⟨⟨9, h9⟩, (flush2_5 _).mpr rfl, ?_⟩)
    rw [mem_blk2_5]
    intro a
    match a with
    | ⟨0, _⟩ =>
      have hi : (i 0).val < 128 := (i 0).isLt
      show win2_5.index ⟨9, h9⟩ (0 : Fin 2) * 128 ≤ (i 0).val ∧ (i 0).val < win2_5.index ⟨9, h9⟩ (0 : Fin 2) * 128 + 128
      omega
    | ⟨1, _⟩ =>
      have hi : (i 1).val < 16 := (i 1).isLt
      show win2_5.index ⟨9, h9⟩ (1 : Fin 2) * 16 ≤ (i 1).val ∧ (i 1).val < win2_5.index ⟨9, h9⟩ (1 : Fin 2) * 16 + 16
      omega
  · refine (dat2 V c).arrAt_eq_of_cover 6 (KerSpec.counts (F := F) bt 9)
      (fun t hf => flushed2_6_eq V c h g W2 b2 bt hh hg hW hb hbt t hf) (fun i => ⟨⟨9, h9⟩, (flush2_6 _).mpr rfl, ?_⟩)
    rw [mem_blk2_6]
    intro a
    match a with
    | ⟨0, _⟩ =>
      have hi : (i 0).val < 1 := (i 0).isLt
      show win2_6.index ⟨9, h9⟩ (0 : Fin 2) * 1 ≤ (i 0).val ∧ (i 0).val < win2_6.index ⟨9, h9⟩ (0 : Fin 2) * 1 + 1
      omega
    | ⟨1, _⟩ =>
      have hi : (i 1).val < 128 := (i 1).isLt
      show win2_6.index ⟨9, h9⟩ (1 : Fin 2) * 128 ≤ (i 1).val ∧ (i 1).val < win2_6.index ⟨9, h9⟩ (1 : Fin 2) * 128 + 128
      omega

end Cert.KernelIdeal.Launches

end
-- ==== Proof.KernelValue.lean ====
import proofs.«412654_j20461224198763_3_alg».proof.Proof.FrameRun
import proofs.«412654_j20461224198763_3_alg».proof.Proof.ValueA
import proofs.«412654_j20461224198763_3_alg».proof.Proof.ValueC
import proofs.«412654_j20461224198763_3_alg».proof.Proof.KerSpec
import Idealize.ShloMosaic.Lib.StableHlo.Run

set_option maxRecDepth 16384

noncomputable section

namespace Cert.KernelIdeal.Launches

open Idealize.ShloMosaic Idealize.ShloMosaic.TcCoe Idealize.ShloMosaic.StableHlo
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (c : Dev nD)

/-- An argument as launched on core `c`. -/
abbrev arg (r : Ref sig .tc) : Buf (Elt F) ((c : Thread nD τ).loc r) := m ((c : Thread nD τ).loc r)

/-- The edge list's two rows, as the first host lines leave them; no later segment writes them. -/
theorem at1_src : B1 m c (Proc.devRef .tc main_v1)
    = shapeCast _ (extractStridedSlice S1x640000 ![0, 0] (arg m c main_arg1) slices_S2x640000_S1x640000_0_0) shapeCasts_S1x640000_S640000 := by
  show StableHlo.after hostOps0 (B0 m c) (Proc.devRef .tc main_v1) = _
  after_results; rfl
theorem at1_dst : B1 m c (Proc.devRef .tc main_v3)
    = shapeCast _ (extractStridedSlice S1x640000 ![1, 0] (arg m c main_arg1) slices_S2x640000_S1x640000_1_0) shapeCasts_S1x640000_S640000 := by
  show StableHlo.after hostOps0 (B0 m c) (Proc.devRef .tc main_v3) = _
  after_results; rfl
theorem at2_row (r : Ref sig .tc) (h : r ≠ main_v4) (h' : r ∉ hostOps1_W) : B3 m c (Proc.devRef .tc r) = B1 m c (Proc.devRef .tc r) :=
  (StableHlo.after_of_writes_sub hostOps1 _ hostOps1_writes h').trans (B2_keep m c r h)
theorem at4_row (r : Ref sig .tc) (h : r ≠ main_v4) (h' : r ∉ hostOps1_W) (h'' : r ≠ main_v15) :
    B4 m c (Proc.devRef .tc r) = B1 m c (Proc.devRef .tc r) :=
  (B4_keep m c r h'').trans (at2_row m c r h h')

theorem at2_xw : B2 m c (Proc.devRef .tc main_v4) = KerSpec.xw (arg m c main_arg0) (arg m c main_arg3) :=
  (B2_arr m c 2).trans (xw_array (E1 m) c _ _ (kept1 m c main_arg0 (by decide)) (kept1 m c main_arg3 (by decide)))

theorem at3_agg : B3 m c (Proc.devRef .tc main_v14) = KerSpec.agg (KerSpec.xw (arg m c main_arg0) (arg m c main_arg3)) (arg m c main_arg1) := by
  show StableHlo.after hostOps1 (B2 m c) (Proc.devRef .tc main_v14) = _
  after_results
  rw [at2_xw, B2_keep m c main_v1 (by decide), B2_keep m c main_v3 (by decide), at1_src, at1_dst]
  rfl

theorem at4_h1 : B4 m c (Proc.devRef .tc main_v15) = KerSpec.layer1 (arg m c main_arg0) (arg m c main_arg1) (arg m c main_arg3) (arg m c main_arg4) :=
  (B4_arr m c 3).trans (h1_array (E3 m) c _ _ _ ((StableHlo.after_of_writes_sub hostOps1 _ hostOps1_writes (by decide)).trans (at2_xw m c))
    (at3_agg m c) (kept3 m c main_arg4 (by decide)))

theorem at5_agg : B5 m c (Proc.devRef .tc main_v25)
    = KerSpec.agg (KerSpec.layer1 (arg m c main_arg0) (arg m c main_arg1) (arg m c main_arg3) (arg m c main_arg4)) (arg m c main_arg1) := by
  show StableHlo.after hostOps2 (B4 m c) (Proc.devRef .tc main_v25) = _
  after_results
  rw [at4_h1, at4_row m c main_v1 (by decide) (by decide) (by decide), at4_row m c main_v3 (by decide) (by decide) (by decide), at1_src, at1_dst]
  rfl

theorem at5_ids : B5 m c (Proc.devRef .tc main_v26) = KerSpec.batchCol (arg m c main_arg2) := by
  show StableHlo.after hostOps2 (B4 m c) (Proc.devRef .tc main_v26) = _
  after_results
  rw [kept4 m c main_arg2 (by decide)]
  rfl

theorem at6_pooled :
    B6 m c (Proc.devRef .tc main_v27_0)
        = KerSpec.sums (KerSpec.layer1 (arg m c main_arg0) (arg m c main_arg1) (arg m c main_arg3) (arg m c main_arg4))
            (KerSpec.agg (KerSpec.layer1 (arg m c main_arg0) (arg m c main_arg1) (arg m c main_arg3) (arg m c main_arg4)) (arg m c main_arg1))
            (arg m c main_arg5) (arg m c main_arg6) (KerSpec.batchCol (arg m c main_arg2)) 9
      ∧ B6 m c (Proc.devRef .tc main_v27_1) = KerSpec.counts (F := F) (KerSpec.batchCol (arg m c main_arg2)) 9 := by
  have h := pooled_arrays (E5 m) c _ _ _ _ _ ((StableHlo.after_of_writes_sub hostOps2 _ hostOps2_writes (by decide)).trans (at4_h1 m c))
    (at5_agg m c) (kept5 m c main_arg5 (by decide)) (kept5 m c main_arg6 (by decide)) (at5_ids m c)
  exact ⟨(B6_arr m c 5).trans h.1, (B6_arr m c 6).trans h.2⟩

/-- The program's result buffer ends at the kernel's whole-array function of the nine arguments. -/
theorem result_value : B7 m c (Proc.devRef .tc main_v37)
    = KerSpec.out (arg m c main_arg0) (arg m c main_arg1) (arg m c main_arg2) (arg m c main_arg3) (arg m c main_arg4) (arg m c main_arg5)
        (arg m c main_arg6) (arg m c main_arg7) (arg m c main_arg8) := by
  show StableHlo.after hostOps3 (B6 m c) (Proc.devRef .tc main_v37) = _
  after_results
  rw [(at6_pooled m c).1, (at6_pooled m c).2, kept6 m c main_arg7 (by decide), kept6 m c main_arg8 (by decide)]
  rfl

end Cert.KernelIdeal.Launches

end
-- ==== Proof.RefStages.lean ====
import proofs.«412654_j20461224198763_3_alg».proof.Proof.Gen.ReferenceIdeal.Read
import proofs.«412654_j20461224198763_3_alg».proof.Proof.KerSpec

noncomputable section

namespace Cert.ReferenceIdeal.Stages

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def h2R (h g : FVec F S100000x16 .f32) (W2 : FVec F S16x16 .f32) (b2 : FVec F S16 .f32) : FVec F S100000x16 .f32 :=
  maximumf (addf (Host.dotGeneral dot_S100000x16_S16x16_S100000x16_1_0_0_1_n_n none (addf h g) W2) (val_main_v33 (F := F) b2))
    (val_main_call1_v0 (F := F))

def sumsR (h2 : FVec F S100000x16 .f32) (bt : IVec S100000 32) : FVec F S128x16 .f32 :=
  Host.scatterAdd scatter_S128x16_S100000x1_S100000x16_1_0_0_1 (val_main_v36 (F := F)) (val_main_v37 (F := F) bt) h2

def tailR (s : FVec F S128x16 .f32) (n : FVec F S128 .f32) (Wfc : FVec F S16x10 .f32) (bfc : FVec F S10 .f32) : FVec F S128x10 .f32 :=
  addf (Host.dotGeneral dot_S128x16_S16x10_S128x10_1_0_0_1_n_n none
      (Host.divf s (broadcastInDim S128x16 ![0, 1] bcast_S128x1_S128x16_0_1 (broadcastInDim S128x1 ![0] bcast_S128_S128x1_0
        (maximumf n (val_main_v43 (F := F))))))
      Wfc)
    (val_main_v50 (F := F) bfc)

-- The reference's result is these stages composed over its first layer.
theorem v51_eq (x0 : FVec F S100000x128 .f32) (x1 : IVec S2x640000 32) (x2 : IVec S100000 32) (x3 : FVec F S128x16 .f32) (x4 : FVec F S16 .f32)
    (x5 : FVec F S16x16 .f32) (x6 : FVec F S16 .f32) (x7 : FVec F S16x10 .f32) (x8 : FVec F S10 .f32) :
    val_main_v51 (F := F) x0 x1 x2 x3 x4 x5 x6 x7 x8
      = tailR (sumsR (h2R (val_main_v19 (F := F) x0 x1 x3 x4) (Cert.KernelIdeal.KerSpec.agg (val_main_v19 (F := F) x0 x1 x3 x4) x1) x5 x6) x2)
          (val_main_v42 (F := F) x2) x7 x8 := rfl

end Cert.ReferenceIdeal.Stages

end
-- ==== Proof.LibGatherScatter.lean ====
import Idealize.ShloMosaic.PureOps.Ideal
import Idealize.ShloMosaic.Lib.ValueIdxRank1

open scoped BigOperators

namespace Cert.Proof.GS

open Idealize.ShloMosaic Idealize.ShloMosaic.ValueIdx

abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

-- The row a gather reads for an index word: the word read signed, clamped into the rows there are.
def row {N : Nat} (hN : 0 < N) {w : Nat} (b : BitVec w) : Fin N := ⟨min b.toInt.toNat (N - 1), by omega⟩

variable {α : Type}

-- Axis 0 is collapsed and start-indexed, so it carries the clamped start; axis 1 is the full-width offset axis.
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  refine congrArg x (funext fun a => Fin.ext ?_)
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    exact congrArg (fun k => min (idx k).toInt.toNat (N - 1))
      (funext fun b => Fin.ext (match b with | ⟨0, _⟩ => rfl | ⟨1, _⟩ => rfl))
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    unfold GatherDims.start GatherDims.offCoord
    rw [dif_neg (show (1 : Fin 2) ∉ ([0] : List (Fin 2)) by decide),
      dif_pos ((GatherDims.mem_sKept _ _).mpr ⟨show (1 : Fin 2) ∉ ([0] : List (Fin 2)) by decide, List.not_mem_nil⟩)]
    exact Nat.zero_add _

-- An update lands on `r` exactly when start plus window coordinate is `r`'s coordinate on every axis.
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    refine ⟨fun hh a => ?_, fun hall => ?_⟩
    · rw [← congrFun (Option.some.inj hh) a]
      exact (Int.toNat_of_nonneg (h a).1).symm
    · exact congrArg some (funext fun a => Fin.ext (by
        show (d.start j idx a + (d.window j a : Int)).toNat = (r a).val
        rw [hall a]; exact Int.toNat_natCast _))
  · next h =>
    refine ⟨fun hh => (nomatch hh), fun hall => (h fun a => ?_).elim⟩
    rw [hall a]
    exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

theorem scatD_start0 : (scatD N E D wf).start (ix2 e q') idx 0 = (idx (ix2 e (0 : Fin 1))).toInt :=
  (dif_pos (List.mem_singleton.mpr rfl)).trans (congrArg (fun k => (idx k).toInt)
    (funext fun b => Fin.ext (match b with | ⟨0, _⟩ => rfl | ⟨1, _⟩ => rfl)))

theorem scatD_window0 : (scatD N E D wf).window (ix2 e q') 0 = 0 :=
  dif_neg (by simp [ScatterDims.sKept, Shape.kept])

theorem scatD_start1 : (scatD N E D wf).start (ix2 e q') idx 1 = 0 :=
  dif_neg (show (1 : Fin 2) ∉ ([0] : List (Fin 2)) by decide)

theorem scatD_window1 : (scatD N E D wf).window (ix2 e q') 1 = q'.val :=
  (dif_pos (by simp [ScatterDims.sKept, Shape.kept])).trans rfl

-- Update `(e, q')` lands on `(i, q)` iff `q' = q` and the edge's word, read signed, is `i`.
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff, Fin.forall_fin_two, scatD_start0, scatD_window0, scatD_start1, scatD_window1]
  show _ + ((0 : ℕ) : Int) = (i.val : Int) ∧ 0 + (q'.val : Int) = (q.val : Int) ↔ _
  rw [Nat.cast_zero, add_zero, zero_add, Nat.cast_inj, Fin.val_inj, and_comm]

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

theorem scat1_start0 : (scat1 N E wf).start (ix1 e) idx 0 = (idx (ix2 e (0 : Fin 1))).toInt :=
  (dif_pos (List.mem_singleton.mpr rfl)).trans (congrArg (fun k => (idx k).toInt)
    (funext fun b => Fin.ext (match b with | ⟨0, _⟩ => rfl | ⟨1, _⟩ => rfl)))

theorem scat1_window0 : (scat1 N E wf).window (ix1 e) 0 = 0 :=
  dif_neg (by simp [ScatterDims.sKept, Shape.kept])

-- Update `e` lands on `i` iff the edge's word, read signed, is `i`.
theorem scat1_resultIdx?_iff (i : Fin N) :
    (scat1 N E wf).resultIdx? (ix1 e) idx = some (ix1 i) ↔ (idx (ix2 e (0 : Fin 1))).toInt = (i.val : Int) := by
  rw [resultIdx?_eq_some_iff, Fin.forall_fin_one, scat1_start0, scat1_window0]
  show _ + ((0 : ℕ) : Int) = (i.val : Int) ↔ _
  rw [Nat.cast_zero, add_zero]

end Scat1

section ScatterAddAt
open Finset

-- The updates landing on `(i, q)` are the `(e, q)` with word `i`: the sum over pairs collapses to a sum over edges.
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int) <;> simp [ht]

theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  rw [Finset.sum_filter, Finset.sum_filter]
  refine Fintype.sum_equiv idxEquiv1 _ _ fun j => ?_
  obtain ⟨e, rfl⟩ : ∃ e, j = ix1 e := ⟨j 0, eq_ix1 j⟩
  simp only [scat1_resultIdx?_iff]
  rfl

end ScatterAddAt

end Cert.Proof.GS
-- ==== Proof.LibRows.lean ====
import Idealize.ShloMosaic.Lib.StackMember
import Idealize.ShloMosaic.Lib.ValueLayout

open scoped BigOperators

namespace Cert.Proof.LibRows

open Idealize.ShloMosaic Idealize.ShloMosaic.ValueIdx

variable {α : Type}

-- A one-column matrix repeated across the columns keeps, in every column, its row's entry.
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- A vector and its one-column matrix have the same row-major order.
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

-- Added to zero, a matrix product's entries are the sums of products over the contracted index.
theorem matmul_plain_zero_apply {M K N : ℕ} {φ₁ φ₂ : FTy} (prec : Option ContractPrecision)
    (x : FVec Ideal ⟨2, ![M, K]⟩ φ₁) (W : FVec Ideal ⟨2, ![K, N]⟩ φ₂) (r : Fin M) (q : Fin N) :
    matmul (DotDims.plain M K N) prec x W (constant ⟨2, ![M, N]⟩ .f32 0x00000000#32) (ix2 r q)
      = ∑ k : Fin K, x (ix2 r k) * W (ix2 k q) :=
  (congrFun (matmul_zero_eq_dotGeneral _ prec x W) _).trans (StackMember.dotGeneral_plain_apply prec x W r q)

-- The same with the left operand transposed: both operands are contracted over their rows.
theorem matmul_tn_zero_apply {M K N : ℕ} {φ₁ φ₂ : FTy}
    (wf : DotDims.WF ⟨2, ![K, M]⟩ ⟨2, ![K, N]⟩ ⟨2, ![M, N]⟩ [0] [0] [1] [1] [] []) (prec : Option ContractPrecision)
    (A : FVec Ideal ⟨2, ![K, M]⟩ φ₁) (B : FVec Ideal ⟨2, ![K, N]⟩ φ₂) (c : Fin M) (f : Fin N) :
    matmul (⟨[0], [0], [1], [1], [], [], wf⟩ : DotDims _ _ _) prec A B (constant ⟨2, ![M, N]⟩ .f32 0x00000000#32) (ix2 c f)
      = ∑ t : Fin K, A (ix2 t c) * B (ix2 t f) := by
  show FloatOps.matmul _ prec A B _ _ = _
  rw [Ideal.matmul_constant_zero_apply, ← Equiv.sum_comp (contrEquiv1 _ K rfl rfl).symm]
  refine Finset.sum_congr rfl fun t _ => ?_
  have ht := contrEquiv1_symm_val
    (⟨[0], [0], [1], [1], [], [], wf⟩ : DotDims ⟨2, ![K, M]⟩ ⟨2, ![K, N]⟩ ⟨2, ![M, N]⟩) K rfl rfl t
  congr 2 <;> funext ax <;> apply Fin.ext <;> match ax with
    | ⟨0, _⟩ => simp [DotDims.lhsIdx, DotDims.rhsIdx]; exact ht
    | ⟨1, _⟩ => simp [DotDims.lhsIdx, DotDims.rhsIdx]; rfl

end Cert.Proof.LibRows
-- ==== Proof.Layer1.lean ====
import proofs.«412654_j20461224198763_3_alg».proof.Proof.KerSpec
import proofs.«412654_j20461224198763_3_alg».proof.Proof.RefStages
import proofs.«412654_j20461224198763_3_alg».proof.Proof.LibGatherScatter
import proofs.«412654_j20461224198763_3_alg».proof.Proof.LibRows

noncomputable section

open Idealize.ShloMosaic Idealize.ShloMosaic.ValueIdx Cert.KernelIdeal.KerSpec Cert.Proof

namespace Cert.Bridge.Layer1

def srcRow (ei : IVec Cert.KernelIdeal.S2x640000 32) (e : Fin 640000) : Fin 100000 :=
  GS.row (N := 100000) (by decide) (srcIdx ei (ix2 e (0 : Fin 1)))

def inEdges (ei : IVec Cert.KernelIdeal.S2x640000 32) (i : Fin 100000) : Finset (Fin 640000) :=
  Finset.univ.filter fun e : Fin 640000 => (dstIdx ei (ix2 e (0 : Fin 1))).toInt = (i.val : Int)

-- Rows gathered along `src` and added up along `dst` from zero: at a row, the sum over the edges into it.
theorem nbrSum_apply {D : ℕ} (wfs : ScatterDims.WF ⟨2, ![100000, D]⟩ ⟨2, ![640000, 1]⟩ ⟨2, ![640000, D]⟩ [1] [0] [0] 1)
    (wfg : GatherDims.WF ⟨2, ![100000, D]⟩ ⟨2, ![640000, 1]⟩ ⟨2, ![640000, D]⟩ [1] [0] [] [0] [] 1 ![1, D])
    (z a : FVec Ideal ⟨2, ![100000, D]⟩ .f32) (ei : IVec Cert.KernelIdeal.S2x640000 32) (i : Fin 100000) (q : Fin D)
    (hz : z (ix2 i q) = 0) :
    Host.scatterAdd (GS.scatD 100000 640000 D wfs) z (dstIdx ei)
        (Host.gather (GS.gathD 100000 640000 D wfg) a (srcIdx ei)) (ix2 i q)
      = ∑ e ∈ inEdges ei i, a (ix2 (srcRow ei e) q) := by
  rw [GS.scatterAdd_scatD_apply, hz, zero_add]
  exact Finset.sum_congr rfl fun e _ => GS.gather_gathD_apply (by decide) _ a (srcIdx ei) e q

section Kernel
open Cert.KernelIdeal Cert.KernelIdeal.Gen

theorem xw_apply (x : FVec Ideal S100000x128 .f32) (W1 : FVec Ideal S128x16 .f32) (i : Fin 100000) (j : Fin 16) :
    xw (F := Ideal) x W1 (ix2 i j) = ∑ k : Fin 128, x (ix2 i k) * W1 (ix2 k j) := by
  show k0_pay1 (F := Ideal) (rows128 x (blkOf i)) W1 (ix2 (inBlk i) j) = _
  unfold k0_pay1
  refine (LibRows.matmul_plain_zero_apply none _ _ (inBlk i) j).trans (Finset.sum_congr rfl fun k _ => ?_)
  show x (ix2 (rowOf (blkOf i) (inBlk i)) k) * _ = _
  rw [rowOf_blkOf_inBlk]
  rfl

theorem h1_apply (a g : FVec Ideal S100000x16 .f32) (b1 : FVec Ideal S16 .f32) (i : Fin 100000) (j : Fin 16) :
    h1 (F := Ideal) a g b1 (ix2 i j) = max (a (ix2 i j) + g (ix2 i j) + b1 (ix1 j)) (Ideal.ofBits .f32 0x00000000#32) := by
  show k1_pay1 (F := Ideal) (rows16 a (blkOf i)) (rows16 g (blkOf i)) b1 (ix2 (inBlk i) j) = _
  unfold k1_pay1
  simp only [shapeCast_self]
  rw [maximumf_apply, addf_apply, addf_apply, broadcastTo_1b_ab_apply, shapeCast_a_1a_apply, broadcast_apply]
  show max (a (ix2 (rowOf (blkOf i) (inBlk i)) j) + g (ix2 (rowOf (blkOf i) (inBlk i)) j) + b1 (ix1 j)) _ = _
  rw [rowOf_blkOf_inBlk]
  rfl

theorem agg_apply (a : FVec Ideal S100000x16 .f32) (ei : IVec S2x640000 32) (i : Fin 100000) (j : Fin 16) :
    agg (F := Ideal) a ei (ix2 i j) = ∑ e ∈ inEdges ei i, a (ix2 (srcRow ei e) j) :=
  nbrSum_apply Facts₀.scatter_S100000x16_S640000x1_S640000x16_1_0_0_1_wf
    Facts₀.gather_S100000x16_S640000x1_S640000x16_1_0_n_n_0_1_116_wf _ a ei i j
    ((broadcastInDim_apply _ bcast_S_S100000x16 _ (ix2 i j) ix0 fun a => a.elim0).trans Ideal.ofBits_zero_f32)

end Kernel

section Reference
open Cert.ReferenceIdeal Cert.ReferenceIdeal.Gen Cert.ReferenceIdeal.Read

theorem v13_apply (x : FVec Ideal S100000x128 .f32) (ei : IVec S2x640000 32) (i : Fin 100000) (k : Fin 128) :
    val_main_v13 (F := Ideal) x ei (ix2 i k) = ∑ e ∈ inEdges ei i, x (ix2 (srcRow ei e) k) :=
  nbrSum_apply Facts₀.scatter_S100000x128_S640000x1_S640000x128_1_0_0_1_wf
    Facts₀.gather_S100000x128_S640000x1_S640000x128_1_0_n_n_0_1_1128_wf _ x ei i k
    ((val_main_v11_apply _).trans ((val_main_cst_apply _).trans Ideal.ofBits_zero_f32))

theorem v19_apply (x : FVec Ideal S100000x128 .f32) (ei : IVec S2x640000 32) (W1 : FVec Ideal S128x16 .f32) (b1 : FVec Ideal S16 .f32)
    (i : Fin 100000) (j : Fin 16) :
    val_main_v19 (F := Ideal) x ei W1 b1 (ix2 i j)
      = max ((∑ k : Fin 128, (x (ix2 i k) + ∑ e ∈ inEdges ei i, x (ix2 (srcRow ei e) k)) * W1 (ix2 k j)) + b1 (ix1 j))
          (Ideal.ofBits .f32 0x00000000#32) := by
  rw [val_main_v19_apply, val_main_v18_apply, val_main_v17_apply, val_main_v16_apply, val_main_call0_v0_apply,
    val_main_call0_cst_apply]
  refine congrArg₂ max (congrArg₂ (· + ·) ((StackMember.dotGeneral_plain_apply none _ W1 i j).trans ?_) (congrArg b1 ?_)) rfl
  · simp only [val_main_v14_apply, v13_apply]
    rfl
  · exact funext fun a => Fin.ext (match a with | ⟨0, _⟩ => rfl)

end Reference

-- Finite entries are real numbers, and over the reals the product distributes over the neighbour sum.
theorem distrib_finite {K E : Type} [Fintype K] (D : Finset E) (u : K → EReal) (v : E → K → EReal) (w : K → EReal)
    (hu : ∀ k, u k ≠ ⊤ ∧ u k ≠ ⊥) (hv : ∀ e k, v e k ≠ ⊤ ∧ v e k ≠ ⊥) (hw : ∀ k, w k ≠ ⊤ ∧ w k ≠ ⊥) :
    ∑ k, (u k + ∑ e ∈ D, v e k) * w k = ∑ k, u k * w k + ∑ e ∈ D, ∑ k, v e k * w k := by
  have coe_sum : ∀ {ι : Type} (s : Finset ι) (f : ι → ℝ), ∑ i ∈ s, (f i : EReal) = ((∑ i ∈ s, f i : ℝ) : EReal) := by
    classical
    intro ι s f
    refine Finset.induction_on s (by simp) fun a s ha ih => ?_
    rw [Finset.sum_insert ha, Finset.sum_insert ha, EReal.coe_add, ih]
  lift u to K → ℝ using hu
  lift w to K → ℝ using hw
  lift v to E → K → ℝ using hv
  simp only [← EReal.coe_mul, coe_sum, ← EReal.coe_add, add_mul, Finset.sum_add_distrib, Finset.sum_mul]
  rw [Finset.sum_comm]

end Cert.Bridge.Layer1

namespace Cert.Bridge

open Cert.Bridge.Layer1

theorem layer1_eq (x : FVec Ideal Cert.KernelIdeal.S100000x128 .f32) (ei : IVec Cert.KernelIdeal.S2x640000 32)
    (W1 : FVec Ideal Cert.KernelIdeal.S128x16 .f32) (b1 : FVec Ideal Cert.KernelIdeal.S16 .f32)
    (hx : ∀ i, x i ≠ ⊤ ∧ x i ≠ ⊥) (hW1 : ∀ i, W1 i ≠ ⊤ ∧ W1 i ≠ ⊥) :
    layer1 (F := Ideal) x ei W1 b1 = Cert.ReferenceIdeal.Read.val_main_v19 (F := Ideal) x ei W1 b1 := by
  funext idx
  obtain ⟨i, j, rfl⟩ : ∃ (i : Fin 100000) (j : Fin 16), idx = ix2 i j := ⟨idx 0, idx 1, eq_ix2 idx⟩
  rw [v19_apply]
  unfold layer1
  rw [h1_apply, agg_apply, xw_apply]
  simp only [xw_apply]
  rw [distrib_finite (inEdges ei i) (fun k => x (ix2 i k)) (fun e k => x (ix2 (srcRow ei e) k)) (fun k => W1 (ix2 k j))
    (fun k => hx _) (fun e k => hx _) (fun k => hW1 _)]

end Cert.Bridge

end
-- ==== Proof.Pool.lean ====
import proofs.«412654_j20461224198763_3_alg».proof.Proof.KerSpec
import proofs.«412654_j20461224198763_3_alg».proof.Proof.RefStages
import proofs.«412654_j20461224198763_3_alg».proof.Proof.LibGatherScatter
import proofs.«412654_j20461224198763_3_alg».proof.Proof.LibRows
import Idealize.ShloMosaic.Lib.IdealHost

noncomputable section

open Idealize.ShloMosaic Idealize.ShloMosaic.ValueIdx Cert.Proof

namespace Cert.Bridge

open Cert.KernelIdeal Cert.KernelIdeal.Gen Cert.KernelIdeal.KerSpec

def hot (w : BitVec 32) (c : Fin 128) : EReal := if w = BitVec.ofNat 32 c.val then 1 else 0

theorem eq_bit_value (x y : BitVec 32) :
    ((((IntOp.cmpi .eq x y).setWidth 32).toInt : ℝ) : EReal) = if x = y then 1 else 0 := by
  by_cases h : x = y
  · simp [IntOp.cmpi, h]
  · simp [IntOp.cmpi, h, beq_eq_false_iff_ne.mpr h]

theorem pay4_apply (blk : IVec S10000x1 32) (t : Fin 10000) (c : Fin 128) :
    k2_pay4 (F := Ideal) blk (ix2 t c) = hot (blk (ix2 t (0 : Fin 1))) c := by
  unfold k2_pay4
  refine (eq_bit_value _ _).trans ?_
  rw [LibRows.broadcastTo_a1_ab_apply, shapeCast_self, broadcastTo_1b_ab_apply, iota_single_apply]
  rfl

def lay2 (W2 : FVec Ideal S16x16 .f32) (b2 : FVec Ideal S16 .f32) (hr gr : Fin 16 → EReal) (f : Fin 16) : EReal :=
  max ((∑ k : Fin 16, (hr k + gr k) * W2 (ix2 k f)) + b2 (ix1 f)) (Ideal.ofBits .f32 0x00000000#32)

theorem batchCol_apply (bt : IVec S100000 32) (i : Fin 100000) (u : Fin 1) : batchCol bt (ix2 i u) = bt (ix1 i) :=
  LibRows.shapeCast_a_a1_apply bt Facts₀.shapeCasts_S100000_S100000x1 i u

-- A block's step adds, per graph, its rows' second-layer entries weighted by the pooling entries.
theorem pay5_apply (h g : FVec Ideal S100000x16 .f32) (W2 : FVec Ideal S16x16 .f32) (b2 : FVec Ideal S16 .f32) (bt : IVec S100000 32)
    (acc : FVec Ideal S128x16 .f32) (c : Fin 128) (f : Fin 16) (b : Fin 10) :
    k2_pay5 (F := Ideal) (rows16 h b) (rows16 g b) W2 b2 (rows1 (batchCol bt) b) acc (ix2 c f)
      = acc (ix2 c f) + ∑ t : Fin 10000, (fun e => hot (bt (ix1 e)) c
          * lay2 W2 b2 (fun k => h (ix2 e k)) (fun k => g (ix2 e k)) f) (rowOf b t) := by
  unfold k2_pay5
  simp only [shapeCast_self]
  rw [addf_apply]
  refine congrArg (acc (ix2 c f) + ·) ((LibRows.matmul_tn_zero_apply _ none _ _ c f).trans (Finset.sum_congr rfl fun t _ => ?_))
  rw [truncf_apply, truncf_apply, pay4_apply, maximumf_apply, addf_apply, broadcastTo_1b_ab_apply, shapeCast_a_1a_apply, broadcast_apply]
  erw [LibRows.matmul_plain_zero_apply]
  show hot (batchCol bt (ix2 (rowOf b t) (0 : Fin 1))) c * _ = _
  rw [batchCol_apply]
  rfl

-- A block's step adds, per graph, the number of its rows with that id.
theorem pay1_apply (bt : IVec S100000 32) (acc : FVec Ideal S1x128 .f32) (c : Fin 128) (b : Fin 10) :
    k2_pay1 (F := Ideal) acc (k2_pay6 (rows1 (batchCol bt) b)) (ix2 (0 : Fin 1) c)
      = acc (ix2 (0 : Fin 1) c) + ∑ t : Fin 10000, (fun e => hot (bt (ix1 e)) c) (rowOf b t) := by
  unfold k2_pay1
  simp only [shapeCast_self]
  rw [addf_apply, shapeCast_a_1a_apply]
  refine congrArg (acc (ix2 (0 : Fin 1) c) + ·) ((Ideal.multiReduction_add_single _ 0x00000000#32
    Facts₀.reduces_S10000x128_S128 (.inl rfl) rfl (ix1 c)).trans (Finset.sum_congr rfl fun t _ => ?_))
  rw [show Facts₀.reduces_S10000x128_S128.lift (ix1 c) t = ix2 t c from
    funext fun a => Fin.ext (match a with | ⟨0, _⟩ => rfl | ⟨1, _⟩ => rfl)]
  exact (pay4_apply _ t c).trans (congrArg (hot · c) (batchCol_apply bt (rowOf b t) 0))

theorem zero_apply {s : Shape} (h : s.ShapeCasts s) (i : s.Idx) :
    shapeCast s (broadcast s (Scalar.ofBits (F := Ideal) .f32 0x00000000#32)) h i = Ideal.ofBits .f32 0x00000000#32 :=
  congrFun (shapeCast_self _ h) i

-- A total that starts at `z + M 0` and gains `M (n + 1)` at each step is `z` plus the sum of the gains.
theorem acc_apply (A M : ℕ → EReal) (z : EReal) (h0 : A 0 = z + M 0) (hs : ∀ n, A (n + 1) = A n + M (n + 1)) (n : ℕ) :
    A n = z + ∑ m ∈ Finset.range (n + 1), M m := by
  induction n with
  | zero => rw [h0, Finset.sum_range_one]
  | succ n ih => rw [hs, ih, Finset.sum_range_succ _ (n + 1), add_assoc]

def rowEquiv : Fin 10 × Fin 10000 ≃ Fin 100000 where
  toFun p := rowOf p.1 p.2
  invFun i := (blkOf i, inBlk i)
  left_inv p := Prod.ext (blkOf_rowOf p.1 p.2) (inBlk_rowOf p.1 p.2)
  right_inv i := rowOf_blkOf_inBlk i

-- The ten blocks' rows, block after block, are all the rows.
theorem sum_blocks (T : Fin 100000 → EReal) :
    ∑ m ∈ Finset.range (9 + 1), ∑ t : Fin 10000, T (rowOf (blkN m) t) = ∑ e : Fin 100000, T e := by
  rw [Finset.sum_range, ← Equiv.sum_comp rowEquiv T, Fintype.sum_prod_type]
  exact Finset.sum_congr rfl fun b _ => by
    rw [show blkN b.val = b from Fin.ext (Nat.mod_eq_of_lt b.isLt)]
    rfl

theorem sums_apply (h g : FVec Ideal S100000x16 .f32) (W2 : FVec Ideal S16x16 .f32) (b2 : FVec Ideal S16 .f32) (bt : IVec S100000 32)
    (c : Fin 128) (f : Fin 16) :
    sums (F := Ideal) h g W2 b2 (batchCol bt) 9 (ix2 c f)
      = Ideal.ofBits .f32 0x00000000#32
        + ∑ e : Fin 100000, hot (bt (ix1 e)) c * lay2 W2 b2 (fun k => h (ix2 e k)) (fun k => g (ix2 e k)) f := by
  rw [← sum_blocks]
  refine acc_apply (fun n => sums (F := Ideal) h g W2 b2 (batchCol bt) n (ix2 c f)) _ _ ?_ ?_ 9
  · exact (pay5_apply h g W2 b2 bt _ c f (blkN 0)).trans (congrArg₂ (· + ·) (zero_apply _ _) rfl)
  · exact fun n => pay5_apply h g W2 b2 bt _ c f (blkN (n + 1))

theorem counts_apply (bt : IVec S100000 32) (c : Fin 128) :
    counts (F := Ideal) (batchCol bt) 9 (ix2 (0 : Fin 1) c)
      = Ideal.ofBits .f32 0x00000000#32 + ∑ e : Fin 100000, hot (bt (ix1 e)) c := by
  rw [← sum_blocks]
  refine acc_apply (fun n => counts (F := Ideal) (batchCol bt) n (ix2 (0 : Fin 1) c)) _ _ ?_ ?_ 9
  · exact (pay1_apply bt _ c (blkN 0)).trans (congrArg₂ (· + ·) (zero_apply _ _) rfl)
  · exact fun n => pay1_apply bt _ c (blkN (n + 1))

section Reference
open Cert.ReferenceIdeal.Read Cert.ReferenceIdeal.Stages

theorem h2R_apply (h g : FVec Ideal S100000x16 .f32) (W2 : FVec Ideal S16x16 .f32) (b2 : FVec Ideal S16 .f32)
    (e : Fin 100000) (f : Fin 16) :
    h2R (F := Ideal) h g W2 b2 (ix2 e f) = lay2 W2 b2 (fun k => h (ix2 e k)) (fun k => g (ix2 e k)) f := by
  unfold h2R lay2
  rw [maximumf_apply, addf_apply, val_main_call1_v0_apply, val_main_v33_apply, val_main_v32_apply]
  refine congrArg₂ max (congrArg₂ (· + ·) (StackMember.dotGeneral_plain_apply none (addf h g) W2 e f) (congrArg b2 ?_)) rfl
  exact funext fun a => Fin.ext (match a with | ⟨0, _⟩ => rfl)

-- A word read signed is a graph's number exactly when it is that number's word.
theorem word_eq_iff (w : BitVec 32) (c : Fin 128) : w.toInt = (c.val : Int) ↔ w = BitVec.ofNat 32 c.val := by
  rw [← BitVec.toNat_inj, BitVec.toNat_ofNat, BitVec.toInt_eq_toNat_cond]
  have := c.isLt
  have := w.isLt
  split <;> omega

-- A row whose id is no graph's number has pooling entry zero and is added nowhere.
theorem filter_sum (bt : IVec S100000 32) (c : Fin 128) (T : Fin 100000 → EReal) :
    ∑ e ∈ Finset.univ.filter (fun e : Fin 100000 => (bt (ix1 e)).toInt = (c.val : Int)), T e
      = ∑ e : Fin 100000, hot (bt (ix1 e)) c * T e := by
  rw [Finset.sum_filter]
  exact Finset.sum_congr rfl fun e _ => by simp only [hot, ← word_eq_iff, ite_mul, one_mul, zero_mul]

theorem v37_apply (bt : IVec S100000 32) (e : Fin 100000) : val_main_v37 (F := Ideal) bt (ix2 e (0 : Fin 1)) = bt (ix1 e) :=
  (val_main_v37_apply _ _).trans (congrArg bt (funext fun a => Fin.ext (match a with | ⟨0, _⟩ => rfl)))

theorem sumsR_apply (h2 : FVec Ideal S100000x16 .f32) (bt : IVec S100000 32) (c : Fin 128) (f : Fin 16) :
    sumsR (F := Ideal) h2 bt (ix2 c f)
      = Ideal.ofBits .f32 0x00000000#32 + ∑ e : Fin 100000, hot (bt (ix1 e)) c * h2 (ix2 e f) := by
  unfold sumsR
  refine (GS.scatterAdd_scatD_apply (N := 128) (E := 100000) (D := 16)
    Cert.ReferenceIdeal.Facts₀.scatter_S128x16_S100000x1_S100000x16_1_0_0_1_wf (val_main_v36 (F := Ideal)) (val_main_v37 (F := Ideal) bt) h2 c f).trans ?_
  rw [val_main_v36_apply, ← filter_sum]
  simp only [v37_apply]
  rfl

theorem v42_apply (bt : IVec S100000 32) (c : Fin 128) :
    val_main_v42 (F := Ideal) bt (ix1 c)
      = Ideal.ofBits .f32 0x00000000#32 + ∑ e : Fin 100000, hot (bt (ix1 e)) c * Ideal.ofBits .f32 0x3F800000#32 := by
  unfold val_main_v42
  refine (GS.scatterAdd_scat1_apply (N := 128) (E := 100000)
    Cert.ReferenceIdeal.Facts₀.scatter_S128_S100000x1_S100000_n_0_0_1_wf (val_main_v40 (F := Ideal)) (val_main_v37 (F := Ideal) bt) (val_main_v39 (F := Ideal)) c).trans ?_
  rw [val_main_v40_apply, ← filter_sum]
  simp only [v37_apply, val_main_v39_apply]
  rfl

end Reference

theorem sums_eq (h g : FVec Ideal S100000x16 .f32) (W2 : FVec Ideal S16x16 .f32) (b2 : FVec Ideal S16 .f32) (bt : IVec S100000 32) :
    sums (F := Ideal) h g W2 b2 (batchCol bt) 9
      = Cert.ReferenceIdeal.Stages.sumsR (F := Ideal) (Cert.ReferenceIdeal.Stages.h2R (F := Ideal) h g W2 b2) bt := by
  funext i
  obtain ⟨c, f, rfl⟩ : ∃ (c : Fin 128) (f : Fin 16), i = ix2 c f := ⟨i 0, i 1, eq_ix2 i⟩
  rw [sums_apply, sumsR_apply]
  simp only [h2R_apply]

theorem counts_eq (bt : IVec S100000 32) :
    shapeCast S128 (counts (F := Ideal) (batchCol bt) 9) Facts₀.shapeCasts_S1x128_S128
      = Cert.ReferenceIdeal.Read.val_main_v42 (F := Ideal) bt := by
  funext i
  obtain ⟨c, rfl⟩ : ∃ c : Fin 128, i = ix1 c := ⟨i 0, eq_ix1 i⟩
  rw [shapeCast_1a_a_apply, counts_apply, v42_apply]
  simp only [Ideal.ofBits_one_f32, mul_one]

theorem tail_eq (s : FVec Ideal S128x16 .f32) (n : FVec Ideal S1x128 .f32) (Wfc : FVec Ideal S16x10 .f32) (bfc : FVec Ideal S10 .f32) :
    tail (F := Ideal) s n Wfc bfc
      = Cert.ReferenceIdeal.Stages.tailR (F := Ideal) s (shapeCast S128 n Facts₀.shapeCasts_S1x128_S128) Wfc bfc := rfl

end Cert.Bridge

end
-- ==== Proof.Bridge.lean ====
import proofs.«412654_j20461224198763_3_alg».proof.Proof.Layer1
import proofs.«412654_j20461224198763_3_alg».proof.Proof.Pool

noncomputable section

open Idealize.ShloMosaic

namespace Cert.Bridge

theorem out_eq (x : FVec Ideal Cert.KernelIdeal.S100000x128 .f32) (ei : IVec Cert.KernelIdeal.S2x640000 32) (bt : IVec Cert.KernelIdeal.S100000 32)
    (W1 : FVec Ideal Cert.KernelIdeal.S128x16 .f32) (b1 : FVec Ideal Cert.KernelIdeal.S16 .f32)
    (W2 : FVec Ideal Cert.KernelIdeal.S16x16 .f32) (b2 : FVec Ideal Cert.KernelIdeal.S16 .f32)
    (Wfc : FVec Ideal Cert.KernelIdeal.S16x10 .f32) (bfc : FVec Ideal Cert.KernelIdeal.S10 .f32)
    (hx : ∀ i, x i ≠ ⊤ ∧ x i ≠ ⊥) (hW1 : ∀ i, W1 i ≠ ⊤ ∧ W1 i ≠ ⊥) :
    Cert.KernelIdeal.KerSpec.out (F := Ideal) x ei bt W1 b1 W2 b2 Wfc bfc
      = Cert.ReferenceIdeal.Read.val_main_v51 (F := Ideal) x ei bt W1 b1 W2 b2 Wfc bfc := by
  rw [Cert.ReferenceIdeal.Stages.v51_eq]
  unfold Cert.KernelIdeal.KerSpec.out
  rw [layer1_eq x ei W1 b1 hx hW1, tail_eq, sums_eq, counts_eq]

end Cert.Bridge

end
-- ==== Proof.Finite.lean ====
import proofs.«412654_j20461224198763_3_alg».proof.Defs
import proofs.«412654_j20461224198763_3_alg».proof.Proof.Gen.Pre_finite_inputs
import Idealize.ShloMosaic.Lib.ReduceAll
import Idealize.ShloMosaic.Lib.ValueIdx

noncomputable section

open Idealize.ShloMosaic Idealize.SL.Sem

namespace Cert.Bridge

namespace Finite

theorem ofBits_inf : Ideal.ofBits .f32 0x7F800000#32 = (⊤ : EReal) := by
  simp [Ideal.ofBits, Ideal.ieee]

theorem finite_of_abs_lt (a : EReal)
    (h : Ideal.cmp .olt (max a (-a)) (Ideal.ofBits .f32 0x7F800000#32) = 1#1) : a ≠ ⊤ ∧ a ≠ ⊥ := by
  rw [ofBits_inf] at h
  unfold Ideal.cmp at h
  induction a using EReal.rec with
  | bot => simp at h
  | top => simp at h
  | coe r => exact ⟨EReal.coe_ne_top r, EReal.coe_ne_bot r⟩

/-- The precondition read at `x` and `W1`: every entry is a real number. -/
theorem first_two {a0 : FVec Ideal Cert.Pre_finite_inputs.S100000x128 .f32} {a1 : IVec Cert.Pre_finite_inputs.S2x640000 32}
    {a2 : IVec Cert.Pre_finite_inputs.S100000 32} {a3 : FVec Ideal Cert.Pre_finite_inputs.S128x16 .f32}
    {a4 : FVec Ideal Cert.Pre_finite_inputs.S16 .f32} {a5 : FVec Ideal Cert.Pre_finite_inputs.S16x16 .f32}
    {a6 : FVec Ideal Cert.Pre_finite_inputs.S16 .f32} {a7 : FVec Ideal Cert.Pre_finite_inputs.S16x10 .f32}
    {a8 : FVec Ideal Cert.Pre_finite_inputs.S10 .f32}
    (h : Cert.Pre_finite_inputs.fn (F := Ideal) a0 a1 a2 a3 a4 a5 a6 a7 a8 = fun _ => 1#1) :
    (∀ i, a0 i ≠ ⊤ ∧ a0 i ≠ ⊥) ∧ (∀ i, a3 i ≠ ⊤ ∧ a3 i ≠ ⊥) := by
  have h0 := congrFun h ValueIdx.ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  obtain ⟨hx, hw⟩ := IntOp.andi_eq_one.1 h5
  exact ⟨fun i => finite_of_abs_lt _ (Host.reduce_andi_all _ _ _ _ ValueIdx.ix0 hx i),
    fun i => finite_of_abs_lt _ (Host.reduce_andi_all _ _ _ _ ValueIdx.ix0 hw i)⟩

end Finite

end Cert.Bridge

end
-- ==== Proof.lean ====
import proofs.«412654_j20461224198763_3_alg».proof.Defs
import proofs.«412654_j20461224198763_3_alg».proof.Proof.Gen.Kernel
import proofs.«412654_j20461224198763_3_alg».proof.Proof.Gen.KernelIdeal
import proofs.«412654_j20461224198763_3_alg».proof.Proof.Gen.ReferenceIdeal
import proofs.«412654_j20461224198763_3_alg».proof.Proof.Gen.Pre_finite_inputs
import proofs.«412654_j20461224198763_3_alg».proof.Proof.Gen.ReferenceIdeal.Run
import proofs.«412654_j20461224198763_3_alg».proof.Proof.Gen.ReferenceIdeal.Read
import proofs.«412654_j20461224198763_3_alg».proof.Proof.KFrameRun
import proofs.«412654_j20461224198763_3_alg».proof.Proof.FrameRun
import proofs.«412654_j20461224198763_3_alg».proof.Proof.KernelValue
import proofs.«412654_j20461224198763_3_alg».proof.Proof.Bridge
import proofs.«412654_j20461224198763_3_alg».proof.Proof.Finite
import Idealize.ShloMosaic.Adequacy
import Idealize.ShloMosaic.Init

noncomputable section

namespace Cert.Proof

open Idealize.ShloMosaic Idealize.ShloMosaic.TcCoe Idealize.SL.Sem
open Cert.KernelIdeal Cert.KernelIdeal.Launches

/-- Each printed form of the kernel runs to its end, and no segment writes an argument. -/
theorem frame_kernel : Cert.frame_Kernel (hKernel := Cert.Kernel.Gen.facts) (hPre_finite_inputs := Cert.Pre_finite_inputs.Gen.facts) :=
  fun m ρ _ => (θ_run Cert.Kernel.defs _ _).mono (fun _ h c => Cert.Kernel.Launches.args_end m (h c)) (Cert.Kernel.Launches.run_all m ρ)

theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => args_end m (h c)) (run_all m ρ)

/-- The reference's run read back, its result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- A round trip through bf16 is the identity on the extended reals. -/
theorem preserves : Cert.preserves_Kernel_KernelIdeal :=
  IdealRules.truncf_extf.statement Cert.KernelIdeal.S10000x128 .f32 .bf16

/-- Both idealized programs end at one function of the arguments: the kernel's whole-array value, which on finite inputs is the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, (θ_run Cert.KernelIdeal.defs _ _).mono (fun r h c => ⟨(h c _ (mem_uc main_v37 (by decide))).trans (result_value m c),
    args_end m (h c)⟩)
    (run_all (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact (Cert.Bridge.out_eq _ _ _ _ _ _ _ _ _ (Cert.Bridge.Finite.first_two (hpre c)).1 (Cert.Bridge.Finite.first_two (hpre c)).2).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
